-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part4 {F : FTy → Type} [FloatOps F] (main_arg7 : IVec S640000 32) (main_arg8 : IVec S640000 32) (main_arg9 : IVec S640000 32) (main_v64 : IVec S_ 1) (main_v66 : IVec S640000 1) : IVec S_ 1 :=
  let main_c_27 : IVec S_ 1 := constantI S_ 1 1#1
  let main_v67 : IVec S_ 1 := (fun x v => Host.reduce IntOp.andi x v reducesTo_S640000_S_d0 h_S_) main_v66 main_c_27
  let main_v68 : IVec S_ 1 := andi main_v64 main_v67
  let main_c_28 : IVec S_ 32 := constantI S_ 32 0#32
  let main_v69 : IVec S640000 32 := broadcastInDim S640000 ![] bcast_S_S640000 main_c_28
  let main_v70 : IVec S640000 1 := cmpi .sge main_arg7 main_v69
  let main_c_29 : IVec S_ 1 := constantI S_ 1 1#1
  let main_v71 : IVec S_ 1 := (fun x v => Host.reduce IntOp.andi x v reducesTo_S640000_S_d0 h_S_) main_v70 main_c_29
  let main_v72 : IVec S_ 1 := andi main_v68 main_v71
  let main_c_30 : IVec S_ 32 := constantI S_ 32 0#32
  let main_v73 : IVec S640000 32 := broadcastInDim S640000 ![] bcast_S_S640000 main_c_30
  let main_v74 : IVec S640000 1 := cmpi .sge main_arg8 main_v73
  let main_c_31 : IVec S_ 1 := constantI S_ 1 1#1
  let main_v75 : IVec S_ 1 := (fun x v => Host.reduce IntOp.andi x v reducesTo_S640000_S_d0 h_S_) main_v74 main_c_31
  let main_v76 : IVec S_ 1 := andi main_v72 main_v75
  let main_c_32 : IVec S_ 32 := constantI S_ 32 0#32
  let main_v77 : IVec S640000 32 := broadcastInDim S640000 ![] bcast_S_S640000 main_c_32
  let main_v78 : IVec S640000 1 := cmpi .sge main_arg9 main_v77
  let main_c_33 : IVec S_ 1 := constantI S_ 1 1#1
  let main_v79 : IVec S_ 1 := (fun x v => Host.reduce IntOp.andi x v reducesTo_S640000_S_d0 h_S_) main_v78 main_c_33
  let main_v80 : IVec S_ 1 := andi main_v76 main_v79
  main_v80

def fn_part3 {F : FTy → Type} [FloatOps F] (main_arg3 : IVec S640000 32) (main_arg4 : IVec S640000 32) (main_arg5 : IVec S640000 32) (main_arg6 : IVec S640000 32) (main_arg7 : IVec S640000 32) (main_arg8 : IVec S640000 32) (main_arg9 : IVec S640000 32) (main_v48 : IVec S_ 1) (main_v50 : IVec S640000 1) : IVec S_ 1 :=
  let main_c_19 : IVec S_ 1 := constantI S_ 1 1#1
  let main_v51 : IVec S_ 1 := (fun x v => Host.reduce IntOp.andi x v reducesTo_S640000_S_d0 h_S_) main_v50 main_c_19
  let main_v52 : IVec S_ 1 := andi main_v48 main_v51
  let main_c_20 : IVec S_ 32 := constantI S_ 32 0#32
  let main_v53 : IVec S640000 32 := broadcastInDim S640000 ![] bcast_S_S640000 main_c_20
  let main_v54 : IVec S640000 1 := cmpi .sge main_arg3 main_v53
  let main_c_21 : IVec S_ 1 := constantI S_ 1 1#1
  let main_v55 : IVec S_ 1 := (fun x v => Host.reduce IntOp.andi x v reducesTo_S640000_S_d0 h_S_) main_v54 main_c_21
  let main_v56 : IVec S_ 1 := andi main_v52 main_v55
  let main_c_22 : IVec S_ 32 := constantI S_ 32 0#32
  let main_v57 : IVec S640000 32 := broadcastInDim S640000 ![] bcast_S_S640000 main_c_22
  let main_v58 : IVec S640000 1 := cmpi .sge main_arg4 main_v57
  let main_c_23 : IVec S_ 1 := constantI S_ 1 1#1
  let main_v59 : IVec S_ 1 := (fun x v => Host.reduce IntOp.andi x v reducesTo_S640000_S_d0 h_S_) main_v58 main_c_23
  let main_v60 : IVec S_ 1 := andi main_v56 main_v59
  let main_c_24 : IVec S_ 32 := constantI S_ 32 0#32
  let main_v61 : IVec S640000 32 := broadcastInDim S640000 ![] bcast_S_S640000 main_c_24
  let main_v62 : IVec S640000 1 := cmpi .sge main_arg5 main_v61
  let main_c_25 : IVec S_ 1 := constantI S_ 1 1#1
  let main_v63 : IVec S_ 1 := (fun x v => Host.reduce IntOp.andi x v reducesTo_S640000_S_d0 h_S_) main_v62 main_c_25
  let main_v64 : IVec S_ 1 := andi main_v60 main_v63
  let main_c_26 : IVec S_ 32 := constantI S_ 32 0#32
  let main_v65 : IVec S640000 32 := broadcastInDim S640000 ![] bcast_S_S640000 main_c_26
  let main_v66 : IVec S640000 1 := cmpi .sge main_arg6 main_v65
  fn_part4 (F := F) main_arg7 main_arg8 main_arg9 main_v64 main_v66

def fn_part2 {F : FTy → Type} [FloatOps F] (main_arg2 : IVec S640000 32) (main_arg3 : IVec S640000 32) (main_arg4 : IVec S640000 32) (main_arg5 : IVec S640000 32) (main_arg6 : IVec S640000 32) (main_arg7 : IVec S640000 32) (main_arg8 : IVec S640000 32) (main_arg9 : IVec S640000 32) (main_arg15 : FVec F S128 .f32) (main_arg16 : FVec F S128x128 .f32) (main_arg17 : FVec F S128 .f32) (main_v33 : IVec S_ 1) : IVec S_ 1 :=
  let main_v34 : FVec F S128 .f32 := Host.absf main_arg15
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg16
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg17
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S640000 32 := broadcastInDim S640000 ![] bcast_S_S640000 main_c_18
  let main_v50 : IVec S640000 1 := cmpi .sge main_arg2 main_v49
  fn_part3 (F := F) main_arg3 main_arg4 main_arg5 main_arg6 main_arg7 main_arg8 main_arg9 main_v48 main_v50

def fn_part1 {F : FTy → Type} [FloatOps F] (main_arg2 : IVec S640000 32) (main_arg3 : IVec S640000 32) (main_arg4 : IVec S640000 32) (main_arg5 : IVec S640000 32) (main_arg6 : IVec S640000 32) (main_arg7 : IVec S640000 32) (main_arg8 : IVec S640000 32) (main_arg9 : IVec S640000 32) (main_arg12 : FVec F S128x128 .f32) (main_arg13 : FVec F S128x128 .f32) (main_arg14 : FVec F S128x128 .f32) (main_arg15 : FVec F S128 .f32) (main_arg16 : FVec F S128x128 .f32) (main_arg17 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg12
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg13
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg14
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg4 main_arg5 main_arg6 main_arg7 main_arg8 main_arg9 main_arg15 main_arg16 main_arg17 main_v33

def fn {F : FTy → Type} [FloatOps F] (main_arg0 : FVec F S50000x128 .f32) (main_arg1 : FVec F S50000x128 .f32) (main_arg2 : IVec S640000 32) (main_arg3 : IVec S640000 32) (main_arg4 : IVec S640000 32) (main_arg5 : IVec S640000 32) (main_arg6 : IVec S640000 32) (main_arg7 : IVec S640000 32) (main_arg8 : IVec S640000 32) (main_arg9 : IVec S640000 32) (main_arg10 : FVec F S128x128 .f32) (main_arg11 : FVec F S128x128 .f32) (main_arg12 : FVec F S128x128 .f32) (main_arg13 : FVec F S128x128 .f32) (main_arg14 : FVec F S128x128 .f32) (main_arg15 : FVec F S128 .f32) (main_arg16 : FVec F S128x128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg10
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg11
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg3 main_arg4 main_arg5 main_arg6 main_arg7 main_arg8 main_arg9 main_arg12 main_arg13 main_arg14 main_arg15 main_arg16 main_arg17 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S640000x1 : Shape := ⟨2, ![640000, 1]⟩
abbrev S640000x128 : Shape := ⟨2, ![640000, 128]⟩
abbrev S_ : Shape := ⟨0, ![]⟩
abbrev S640000x130 : Shape := ⟨2, ![640000, 130]⟩
abbrev S50000x130 : Shape := ⟨2, ![50000, 130]⟩
abbrev S50000x1 : Shape := ⟨2, ![50000, 1]⟩
abbrev S5000x1 : Shape := ⟨2, ![5000, 1]⟩
abbrev S1x50000x128 : Shape := ⟨3, ![1, 50000, 128]⟩
abbrev S2x50000x128 : Shape := ⟨3, ![2, 50000, 128]⟩

abbrev nBuf : Space → Nat
  | .hbm => 185
  | .vmem => 44
  | .smem => 0
  | _ => 0

abbrev hbmTy0_0 (i : Nat) : BufTy := match i % 128 with
  | 0 => ⟨S50000x128, .f32⟩
  | 1 => ⟨S50000x128, .f32⟩
  | 2 => ⟨S640000, .i32⟩
  | 3 => ⟨S640000, .i32⟩
  | 4 => ⟨S640000, .i32⟩
  | 5 => ⟨S640000, .i32⟩
  | 6 => ⟨S640000, .i32⟩
  | 7 => ⟨S640000, .i32⟩
  | 8 => ⟨S640000, .i32⟩
  | 9 => ⟨S640000, .i32⟩
  | 10 => ⟨S128x128, .f32⟩
  | 11 => ⟨S128x128, .f32⟩
  | 12 => ⟨S128x128, .f32⟩
  | 13 => ⟨S128x128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128x128, .f32⟩
  | 20 => ⟨S128x128, .f32⟩
  | 21 => ⟨S1x128, .f32⟩
  | 22 => ⟨S50000x128, .f32⟩
  | 23 => ⟨S50000x128, .f32⟩
  | 24 => ⟨S50000x128, .f32⟩
  | 25 => ⟨S128x128, .f32⟩
  | 26 => ⟨S128x128, .f32⟩
  | 27 => ⟨S128x128, .f32⟩
  | 28 => ⟨S1x128, .f32⟩
  | 29 => ⟨S50000x128, .f32⟩
  | 30 => ⟨S50000x128, .f32⟩
  | 31 => ⟨S50000x128, .f32⟩
  | 32 => ⟨S640000x1, .i32⟩
  | 33 => ⟨S640000x128, .f32⟩
  | 34 => ⟨S640000x1, .i32⟩
  | 35 => ⟨S640000x128, .f32⟩
  | 36 => ⟨S640000x128, .f32⟩
  | 37 => ⟨S_, .f32⟩
  | 38 => ⟨S640000, .f32⟩
  | 39 => ⟨S640000x128, .f32⟩
  | 40 => ⟨S_, .f32⟩
  | 41 => ⟨S640000, .f32⟩
  | 42 => ⟨S640000, .f32⟩
  | 43 => ⟨S640000x128, .f32⟩
  | 44 => ⟨S_, .f32⟩
  | 45 => ⟨S640000, .f32⟩
  | 46 => ⟨S640000, .f32⟩
  | 47 => ⟨S640000, .f32⟩
  | 48 => ⟨S_, .f32⟩
  | 49 => ⟨S640000, .f32⟩
  | 50 => ⟨S640000, .f32⟩
  | 51 => ⟨S640000, .f32⟩
  | 52 => ⟨S640000x1, .f32⟩
  | 53 => ⟨S640000x128, .f32⟩
  | 54 => ⟨S640000x128, .f32⟩
  | 55 => ⟨S_, .f32⟩
  | 56 => ⟨S640000x1, .f32⟩
  | 57 => ⟨S640000x130, .f32⟩
  | 58 => ⟨S_, .f32⟩
  | 59 => ⟨S50000x130, .f32⟩
  | 60 => ⟨S640000x1, .i32⟩
  | 61 => ⟨S50000x130, .f32⟩
  | 62 => ⟨S50000x128, .f32⟩
  | 63 => ⟨S50000x1, .f32⟩
  | 64 => ⟨S50000x1, .f32⟩
  | 65 => ⟨S_, .f32⟩
  | 66 => ⟨S50000x1, .f32⟩
  | 67 => ⟨S50000x1, .f32⟩
  | 68 => ⟨S50000x1, .f32⟩
  | 69 => ⟨S640000x1, .i32⟩
  | 70 => ⟨S640000x128, .f32⟩
  | 71 => ⟨S640000x1, .i32⟩
  | 72 => ⟨S640000x128, .f32⟩
  | 73 => ⟨S640000x128, .f32⟩
  | 74 => ⟨S_, .f32⟩
  | 75 => ⟨S640000, .f32⟩
  | 76 => ⟨S640000x128, .f32⟩
  | 77 => ⟨S_, .f32⟩
  | 78 => ⟨S640000, .f32⟩
  | 79 => ⟨S640000, .f32⟩
  | 80 => ⟨S640000x128, .f32⟩
  | 81 => ⟨S_, .f32⟩
  | 82 => ⟨S640000, .f32⟩
  | 83 => ⟨S640000, .f32⟩
  | 84 => ⟨S640000, .f32⟩
  | 85 => ⟨S_, .f32⟩
  | 86 => ⟨S640000, .f32⟩
  | 87 => ⟨S640000, .f32⟩
  | 88 => ⟨S640000, .f32⟩
  | 89 => ⟨S640000x1, .f32⟩
  | 90 => ⟨S640000x128, .f32⟩
  | 91 => ⟨S640000x128, .f32⟩
  | 92 => ⟨S_, .f32⟩
  | 93 => ⟨S640000x1, .f32⟩
  | 94 => ⟨S640000x130, .f32⟩
  | 95 => ⟨S_, .f32⟩
  | 96 => ⟨S50000x130, .f32⟩
  | 97 => ⟨S640000x1, .i32⟩
  | 98 => ⟨S50000x130, .f32⟩
  | 99 => ⟨S50000x128, .f32⟩
  | 100 => ⟨S50000x1, .f32⟩
  | 101 => ⟨S50000x1, .f32⟩
  | 102 => ⟨S_, .f32⟩
  | 103 => ⟨S50000x1, .f32⟩
  | 104 => ⟨S50000x1, .f32⟩
  | 105 => ⟨S50000x1, .f32⟩
  | 106 => ⟨S640000x1, .i32⟩
  | 107 => ⟨S640000x128, .f32⟩
  | 108 => ⟨S640000x1, .i32⟩
  | 109 => ⟨S640000x128, .f32⟩
  | 110 => ⟨S640000x128, .f32⟩
  | 111 => ⟨S_, .f32⟩
  | 112 => ⟨S640000, .f32⟩
  | 113 => ⟨S640000x128, .f32⟩
  | 114 => ⟨S_, .f32⟩
  | 115 => ⟨S640000, .f32⟩
  | 116 => ⟨S640000, .f32⟩
  | 117 => ⟨S640000x128, .f32⟩
  | 118 => ⟨S_, .f32⟩
  | 119 => ⟨S640000, .f32⟩
  | 120 => ⟨S640000, .f32⟩
  | 121 => ⟨S640000, .f32⟩
  | 122 => ⟨S_, .f32⟩
  | 123 => ⟨S640000, .f32⟩
  | 124 => ⟨S640000, .f32⟩
  | 125 => ⟨S640000, .f32⟩
  | 126 => ⟨S640000x1, .f32⟩
  | 127 => ⟨S640000x128, .f32⟩
  | _ => ⟨S50000x128, .f32⟩

abbrev hbmTy0_1 (i : Nat) : BufTy := match i % 128 with
  | 0 => ⟨S640000x128, .f32⟩
  | 1 => ⟨S_, .f32⟩
  | 2 => ⟨S640000x1, .f32⟩
  | 3 => ⟨S640000x130, .f32⟩
  | 4 => ⟨S_, .f32⟩
  | 5 => ⟨S50000x130, .f32⟩
  | 6 => ⟨S640000x1, .i32⟩
  | 7 => ⟨S50000x130, .f32⟩
  | 8 => ⟨S50000x128, .f32⟩
  | 9 => ⟨S50000x1, .f32⟩
  | 10 => ⟨S50000x1, .f32⟩
  | 11 => ⟨S_, .f32⟩
  | 12 => ⟨S50000x1, .f32⟩
  | 13 => ⟨S50000x1, .f32⟩
  | 14 => ⟨S50000x1, .f32⟩
  | 15 => ⟨S640000x1, .i32⟩
  | 16 => ⟨S640000x128, .f32⟩
  | 17 => ⟨S640000x1, .i32⟩
  | 18 => ⟨S640000x128, .f32⟩
  | 19 => ⟨S640000x128, .f32⟩
  | 20 => ⟨S_, .f32⟩
  | 21 => ⟨S640000, .f32⟩
  | 22 => ⟨S640000x128, .f32⟩
  | 23 => ⟨S_, .f32⟩
  | 24 => ⟨S640000, .f32⟩
  | 25 => ⟨S640000, .f32⟩
  | 26 => ⟨S640000x128, .f32⟩
  | 27 => ⟨S_, .f32⟩
  | 28 => ⟨S640000, .f32⟩
  | 29 => ⟨S640000, .f32⟩
  | 30 => ⟨S640000, .f32⟩
  | 31 => ⟨S_, .f32⟩
  | 32 => ⟨S640000, .f32⟩
  | 33 => ⟨S640000, .f32⟩
  | 34 => ⟨S640000, .f32⟩
  | 35 => ⟨S640000x1, .f32⟩
  | 36 => ⟨S640000x128, .f32⟩
  | 37 => ⟨S640000x128, .f32⟩
  | 38 => ⟨S_, .f32⟩
  | 39 => ⟨S640000x1, .f32⟩
  | 40 => ⟨S640000x130, .f32⟩
  | 41 => ⟨S_, .f32⟩
  | 42 => ⟨S50000x130, .f32⟩
  | 43 => ⟨S640000x1, .i32⟩
  | 44 => ⟨S50000x130, .f32⟩
  | 45 => ⟨S50000x128, .f32⟩
  | 46 => ⟨S50000x1, .f32⟩
  | 47 => ⟨S50000x1, .f32⟩
  | 48 => ⟨S_, .f32⟩
  | 49 => ⟨S50000x1, .f32⟩
  | 50 => ⟨S50000x1, .f32⟩
  | 51 => ⟨S50000x1, .f32⟩
  | 52 => ⟨S50000x128, .f32⟩
  | 53 => ⟨S50000x128, .f32⟩
  | 54 => ⟨S1x50000x128, .f32⟩
  | 55 => ⟨S1x50000x128, .f32⟩
  | 56 => ⟨S2x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S5000x1, .f32⟩
  | .local _ .vmem, ⟨31, _⟩ => ⟨S5000x1, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x1, .f32⟩
  | .local _ .vmem, ⟨39, _⟩ => ⟨S5000x1, .f32⟩
  | .local _ .vmem, ⟨40, _⟩ => ⟨S5000x1, .f32⟩
  | .local _ .vmem, ⟨41, _⟩ => ⟨S5000x1, .f32⟩
  | .local _ .vmem, ⟨42, _⟩ => ⟨S5000x128, .f32⟩
  | .local _ .vmem, ⟨43, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_v4_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_call0_v0 : Ref sig .tc := ⟨.hbm, 32, rfl⟩
abbrev main_v10 : Ref sig .tc := ⟨.hbm, 33, rfl⟩
abbrev main_call1_v0 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_v14 : Ref sig .tc := ⟨.hbm, 42, rfl⟩
abbrev main_call3_v0 : Ref sig .tc := ⟨.hbm, 43, rfl⟩
abbrev main_call3_cst : Ref sig .tc := ⟨.hbm, 44, rfl⟩
abbrev main_call3_v1 : Ref sig .tc := ⟨.hbm, 45, rfl⟩
abbrev main_v15 : Ref sig .tc := ⟨.hbm, 46, rfl⟩
abbrev main_v16 : Ref sig .tc := ⟨.hbm, 47, rfl⟩
abbrev main_cst_0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_1 : Ref sig .tc := ⟨.hbm, 55, rfl⟩
abbrev main_v23 : Ref sig .tc := ⟨.hbm, 56, rfl⟩
abbrev main_v24 : Ref sig .tc := ⟨.hbm, 57, rfl⟩
abbrev main_cst_2 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_3 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call4_v0 : Ref sig .tc := ⟨.hbm, 69, rfl⟩
abbrev main_v34 : Ref sig .tc := ⟨.hbm, 70, rfl⟩
abbrev main_call5_v0 : Ref sig .tc := ⟨.hbm, 71, rfl⟩
abbrev main_v35 : Ref sig .tc := ⟨.hbm, 72, rfl⟩
abbrev main_v36 : Ref sig .tc := ⟨.hbm, 73, rfl⟩
abbrev main_cst_4 : Ref sig .tc := ⟨.hbm, 74, rfl⟩
abbrev main_v37 : Ref sig .tc := ⟨.hbm, 75, rfl⟩
abbrev main_call6_v0 : Ref sig .tc := ⟨.hbm, 76, rfl⟩
abbrev main_call6_cst : Ref sig .tc := ⟨.hbm, 77, rfl⟩
abbrev main_call6_v1 : Ref sig .tc := ⟨.hbm, 78, rfl⟩
abbrev main_v38 : Ref sig .tc := ⟨.hbm, 79, rfl⟩
abbrev main_call7_v0 : Ref sig .tc := ⟨.hbm, 80, rfl⟩
abbrev main_call7_cst : Ref sig .tc := ⟨.hbm, 81, rfl⟩
abbrev main_call7_v1 : Ref sig .tc := ⟨.hbm, 82, rfl⟩
abbrev main_v39 : Ref sig .tc := ⟨.hbm, 83, rfl⟩
abbrev main_v40 : Ref sig .tc := ⟨.hbm, 84, rfl⟩
abbrev main_cst_5 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_6 : Ref sig .tc := ⟨.hbm, 92, rfl⟩
abbrev main_v47 : Ref sig .tc := ⟨.hbm, 93, rfl⟩
abbrev main_v48 : Ref sig .tc := ⟨.hbm, 94, rfl⟩
abbrev main_cst_7 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_8 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_call8_v0 : Ref sig .tc := ⟨.hbm, 106, rfl⟩
abbrev main_v58 : Ref sig .tc := ⟨.hbm, 107, rfl⟩
abbrev main_call9_v0 : Ref sig .tc := ⟨.hbm, 108, rfl⟩
abbrev main_v59 : Ref sig .tc := ⟨.hbm, 109, rfl⟩
abbrev main_v60 : Ref sig .tc := ⟨.hbm, 110, rfl⟩
abbrev main_cst_9 : Ref sig .tc := ⟨.hbm, 111, rfl⟩
abbrev main_v61 : Ref sig .tc := ⟨.hbm, 112, rfl⟩
abbrev main_call10_v0 : Ref sig .tc := ⟨.hbm, 113, rfl⟩
abbrev main_call10_cst : Ref sig .tc := ⟨.hbm, 114, rfl⟩
abbrev main_call10_v1 : Ref sig .tc := ⟨.hbm, 115, rfl⟩
abbrev main_v62 : Ref sig .tc := ⟨.hbm, 116, rfl⟩
abbrev main_call11_v0 : Ref sig .tc := ⟨.hbm, 117, rfl⟩
abbrev main_call11_cst : Ref sig .tc := ⟨.hbm, 118, rfl⟩
abbrev main_call11_v1 : Ref sig .tc := ⟨.hbm, 119, rfl⟩
abbrev main_v63 : Ref sig .tc := ⟨.hbm, 120, rfl⟩
abbrev main_v64 : Ref sig .tc := ⟨.hbm, 121, rfl⟩
abbrev main_cst_10 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_11 : Ref sig .tc := ⟨.hbm, 129, rfl⟩
abbrev main_v71 : Ref sig .tc := ⟨.hbm, 130, rfl⟩
abbrev main_v72 : Ref sig .tc := ⟨.hbm, 131, rfl⟩
abbrev main_cst_12 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_cst_13 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_call12_v0 : Ref sig .tc := ⟨.hbm, 143, rfl⟩
abbrev main_v82 : Ref sig .tc := ⟨.hbm, 144, rfl⟩
abbrev main_call13_v0 : Ref sig .tc := ⟨.hbm, 145, rfl⟩
abbrev main_v83 : Ref sig .tc := ⟨.hbm, 146, rfl⟩
abbrev main_v84 : Ref sig .tc := ⟨.hbm, 147, rfl⟩
abbrev main_cst_14 : Ref sig .tc := ⟨.hbm, 148, rfl⟩
abbrev main_v85 : Ref sig .tc := ⟨.hbm, 149, rfl⟩
abbrev main_call14_v0 : Ref sig .tc := ⟨.hbm, 150, rfl⟩
abbrev main_call14_cst : Ref sig .tc := ⟨.hbm, 151, rfl⟩
abbrev main_call14_v1 : Ref sig .tc := ⟨.hbm, 152, rfl⟩
abbrev main_v86 : Ref sig .tc := ⟨.hbm, 153, rfl⟩
abbrev main_call15_v0 : Ref sig .tc := ⟨.hbm, 154, rfl⟩
abbrev main_call15_cst : Ref sig .tc := ⟨.hbm, 155, rfl⟩
abbrev main_call15_v1 : Ref sig .tc := ⟨.hbm, 156, rfl⟩
abbrev main_v87 : Ref sig .tc := ⟨.hbm, 157, rfl⟩
abbrev main_v88 : Ref sig .tc := ⟨.hbm, 158, rfl⟩
abbrev main_cst_15 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_cst_16 : Ref sig .tc := ⟨.hbm, 166, rfl⟩
abbrev main_v95 : Ref sig .tc := ⟨.hbm, 167, rfl⟩
abbrev main_v96 : Ref sig .tc := ⟨.hbm, 168, rfl⟩
abbrev main_cst_17 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_cst_18 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S640000_S640000x1_0 : S640000.BroadcastsInDim S640000x1 (![0] : Fin 1 → Fin S640000x1.rank)
  reducesTo_S640000x128_S640000_d1 : S640000x128.ReducesTo [1] S640000
  h_S_ : 0 < S_.numel
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S640000x1 : S_.BroadcastsInDim S640000x1 (![] : Fin 0 → Fin S640000x1.rank)
  concatenates_S640000x128_S640000x1_S640000x1_S640000x130_d1 : Shape.Concatenates [S640000x128, S640000x1, S640000x1] S640000x130 1
  bcast_S_S50000x130 : S_.BroadcastsInDim S50000x130 (![] : Fin 0 → Fin S50000x130.rank)
  slices_S50000x130_S50000x128_0_0 : S50000x130.Slices ![0, 0] S50000x128
  slices_S50000x130_S50000x1_0_128 : S50000x130.Slices ![0, 128] S50000x1
  slices_S50000x130_S50000x1_0_129 : S50000x130.Slices ![0, 129] S50000x1
  bcast_S_S50000x1 : S_.BroadcastsInDim S50000x1 (![] : Fin 0 → Fin S50000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  scatter_S50000x130_S640000x1_S640000x130_1_0_0_1_wf : ScatterDims.WF S50000x130 S640000x1 S640000x130 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x130_S640000x1_S640000x130_1_0_0_1 : ScatterDims S50000x130 S640000x1 S640000x130 where
  updateWindowDims := [1]
  insertedWindowDims := [0]
  scatterDimsToOperandDims := [0]
  indexVectorDim := 1
  wf := scatter_S50000x130_S640000x1_S640000x130_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_1) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v9_2) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v106) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v76) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v100) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v105) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v107) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S50000x1x128 : Shape := ⟨3, ![50000, 1, 128]⟩
abbrev S50000x2x128 : Shape := ⟨3, ![50000, 2, 128]⟩
abbrev S50000x1x1 : Shape := ⟨3, ![50000, 1, 1]⟩
abbrev S50000x2x1 : Shape := ⟨3, ![50000, 2, 1]⟩
abbrev S1x50000x128 : Shape := ⟨3, ![1, 50000, 128]⟩
abbrev S2x50000x128 : Shape := ⟨3, ![2, 50000, 128]⟩

abbrev nBuf : Space → Nat
  | .hbm => 307
  | .vmem => 0
  | .smem => 0
  | _ => 0

abbrev hbmTy0_0 (i : Nat) : BufTy := match i % 128 with
  | 0 => ⟨S50000x128, .f32⟩
  | 1 => ⟨S50000x128, .f32⟩
  | 2 => ⟨S640000, .i32⟩
  | 3 => ⟨S640000, .i32⟩
  | 4 => ⟨S640000, .i32⟩
  | 5 => ⟨S640000, .i32⟩
  | 6 => ⟨S640000, .i32⟩
  | 7 => ⟨S640000, .i32⟩
  | 8 => ⟨S640000, .i32⟩
  | 9 => ⟨S640000, .i32⟩
  | 10 => ⟨S128x128, .f32⟩
  | 11 => ⟨S128x128, .f32⟩
  | 12 => ⟨S128x128, .f32⟩
  | 13 => ⟨S128x128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S50000x128, .f32⟩
  | 20 => ⟨S1x128, .f32⟩
  | 21 => ⟨S50000x128, .f32⟩
  | 22 => ⟨S50000x128, .f32⟩
  | 23 => ⟨S128x128, .f32⟩
  | 24 => ⟨S50000x128, .f32⟩
  | 25 => ⟨S1x128, .f32⟩
  | 26 => ⟨S50000x128, .f32⟩
  | 27 => ⟨S50000x128, .f32⟩
  | 28 => ⟨S128x128, .f32⟩
  | 29 => ⟨S50000x128, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S640000x128, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x128, .f32⟩
  | 48 => ⟨S640000x128, .f32⟩
  | 49 => ⟨S_, .f32⟩
  | 50 => ⟨S640000, .f32⟩
  | 51 => ⟨S640000x128, .f32⟩
  | 52 => ⟨S_, .f32⟩
  | 53 => ⟨S640000, .f32⟩
  | 54 => ⟨S640000, .f32⟩
  | 55 => ⟨S640000x128, .f32⟩
  | 56 => ⟨S_, .f32⟩
  | 57 => ⟨S640000, .f32⟩
  | 58 => ⟨S640000, .f32⟩
  | 59 => ⟨S640000, .f32⟩
  | 60 => ⟨S_, .f32⟩
  | 61 => ⟨S640000, .f32⟩
  | 62 => ⟨S640000, .f32⟩
  | 63 => ⟨S640000, .f32⟩
  | 64 => ⟨S640000x1, .f32⟩
  | 65 => ⟨S640000x128, .f32⟩
  | 66 => ⟨S640000x128, .f32⟩
  | 67 => ⟨S_, .f32⟩
  | 68 => ⟨S50000x128, .f32⟩
  | 69 => ⟨S640000x1, .i32⟩
  | 70 => ⟨S50000x128, .f32⟩
  | 71 => ⟨S_, .f32⟩
  | 72 => ⟨S50000x1, .f32⟩
  | 73 => ⟨S640000x1, .i32⟩
  | 74 => ⟨S50000x1, .f32⟩
  | 75 => ⟨S_, .f32⟩
  | 76 => ⟨S640000x1, .f32⟩
  | 77 => ⟨S_, .f32⟩
  | 78 => ⟨S50000x1, .f32⟩
  | 79 => ⟨S640000x1, .i32⟩
  | 80 => ⟨S50000x1, .f32⟩
  | 81 => ⟨S_, .f32⟩
  | 82 => ⟨S50000x1, .f32⟩
  | 83 => ⟨S50000x1, .f32⟩
  | 84 => ⟨S50000x1, .f32⟩
  | 85 => ⟨S128x128, .f32⟩
  | 86 => ⟨S50000x128, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S640000x128, .f32⟩
  | 96 => ⟨S_, .i32⟩
  | 97 => ⟨S640000, .i32⟩
  | 98 => ⟨S640000, .i1⟩
  | 99 => ⟨S_, .i32⟩
  | 100 => ⟨S640000, .i32⟩
  | 101 => ⟨S640000, .i32⟩
  | 102 => ⟨S640000, .i32⟩
  | 103 => ⟨S640000x1, .i32⟩
  | 104 => ⟨S640000x128, .f32⟩
  | 105 => ⟨S640000x128, .f32⟩
  | 106 => ⟨S_, .f32⟩
  | 107 => ⟨S640000, .f32⟩
  | 108 => ⟨S640000x128, .f32⟩
  | 109 => ⟨S_, .f32⟩
  | 110 => ⟨S640000, .f32⟩
  | 111 => ⟨S640000, .f32⟩
  | 112 => ⟨S640000x128, .f32⟩
  | 113 => ⟨S_, .f32⟩
  | 114 => ⟨S640000, .f32⟩
  | 115 => ⟨S640000, .f32⟩
  | 116 => ⟨S640000, .f32⟩
  | 117 => ⟨S_, .f32⟩
  | 118 => ⟨S640000, .f32⟩
  | 119 => ⟨S640000, .f32⟩
  | 120 => ⟨S640000, .f32⟩
  | 121 => ⟨S640000x1, .f32⟩
  | 122 => ⟨S640000x128, .f32⟩
  | 123 => ⟨S640000x128, .f32⟩
  | 124 => ⟨S_, .f32⟩
  | 125 => ⟨S50000x128, .f32⟩
  | 126 => ⟨S640000x1, .i32⟩
  | 127 => ⟨S50000x128, .f32⟩
  | _ => ⟨S50000x128, .f32⟩

abbrev hbmTy0_1 (i : Nat) : BufTy := match i % 128 with
  | 0 => ⟨S_, .f32⟩
  | 1 => ⟨S50000x1, .f32⟩
  | 2 => ⟨S640000x1, .i32⟩
  | 3 => ⟨S50000x1, .f32⟩
  | 4 => ⟨S_, .f32⟩
  | 5 => ⟨S640000x1, .f32⟩
  | 6 => ⟨S_, .f32⟩
  | 7 => ⟨S50000x1, .f32⟩
  | 8 => ⟨S640000x1, .i32⟩
  | 9 => ⟨S50000x1, .f32⟩
  | 10 => ⟨S_, .f32⟩
  | 11 => ⟨S50000x1, .f32⟩
  | 12 => ⟨S50000x1, .f32⟩
  | 13 => ⟨S50000x1, .f32⟩
  | 14 => ⟨S128x128, .f32⟩
  | 15 => ⟨S50000x128, .f32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x128, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000x128, .f32⟩
  | 34 => ⟨S640000x128, .f32⟩
  | 35 => ⟨S_, .f32⟩
  | 36 => ⟨S640000, .f32⟩
  | 37 => ⟨S640000x128, .f32⟩
  | 38 => ⟨S_, .f32⟩
  | 39 => ⟨S640000, .f32⟩
  | 40 => ⟨S640000, .f32⟩
  | 41 => ⟨S640000x128, .f32⟩
  | 42 => ⟨S_, .f32⟩
  | 43 => ⟨S640000, .f32⟩
  | 44 => ⟨S640000, .f32⟩
  | 45 => ⟨S640000, .f32⟩
  | 46 => ⟨S_, .f32⟩
  | 47 => ⟨S640000, .f32⟩
  | 48 => ⟨S640000, .f32⟩
  | 49 => ⟨S640000, .f32⟩
  | 50 => ⟨S640000x1, .f32⟩
  | 51 => ⟨S640000x128, .f32⟩
  | 52 => ⟨S640000x128, .f32⟩
  | 53 => ⟨S_, .f32⟩
  | 54 => ⟨S50000x128, .f32⟩
  | 55 => ⟨S640000x1, .i32⟩
  | 56 => ⟨S50000x128, .f32⟩
  | 57 => ⟨S_, .f32⟩
  | 58 => ⟨S50000x1, .f32⟩
  | 59 => ⟨S640000x1, .i32⟩
  | 60 => ⟨S50000x1, .f32⟩
  | 61 => ⟨S_, .f32⟩
  | 62 => ⟨S640000x1, .f32⟩
  | 63 => ⟨S_, .f32⟩
  | 64 => ⟨S50000x1, .f32⟩
  | 65 => ⟨S640000x1, .i32⟩
  | 66 => ⟨S50000x1, .f32⟩
  | 67 => ⟨S_, .f32⟩
  | 68 => ⟨S50000x1, .f32⟩
  | 69 => ⟨S50000x1, .f32⟩
  | 70 => ⟨S50000x1, .f32⟩
  | 71 => ⟨S128x128, .f32⟩
  | 72 => ⟨S50000x128, .f32⟩
  | 73 => ⟨S_, .i32⟩
  | 74 => ⟨S640000, .i32⟩
  | 75 => ⟨S640000, .i1⟩
  | 76 => ⟨S_, .i32⟩
  | 77 => ⟨S640000, .i32⟩
  | 78 => ⟨S640000, .i32⟩
  | 79 => ⟨S640000, .i32⟩
  | 80 => ⟨S640000x1, .i32⟩
  | 81 => ⟨S640000x128, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S640000x128, .f32⟩
  | 91 => ⟨S640000x128, .f32⟩
  | 92 => ⟨S_, .f32⟩
  | 93 => ⟨S640000, .f32⟩
  | 94 => ⟨S640000x128, .f32⟩
  | 95 => ⟨S_, .f32⟩
  | 96 => ⟨S640000, .f32⟩
  | 97 => ⟨S640000, .f32⟩
  | 98 => ⟨S640000x128, .f32⟩
  | 99 => ⟨S_, .f32⟩
  | 100 => ⟨S640000, .f32⟩
  | 101 => ⟨S640000, .f32⟩
  | 102 => ⟨S640000, .f32⟩
  | 103 => ⟨S_, .f32⟩
  | 104 => ⟨S640000, .f32⟩
  | 105 => ⟨S640000, .f32⟩
  | 106 => ⟨S640000, .f32⟩
  | 107 => ⟨S640000x1, .f32⟩
  | 108 => ⟨S640000x128, .f32⟩
  | 109 => ⟨S640000x128, .f32⟩
  | 110 => ⟨S_, .f32⟩
  | 111 => ⟨S50000x128, .f32⟩
  | 112 => ⟨S640000x1, .i32⟩
  | 113 => ⟨S50000x128, .f32⟩
  | 114 => ⟨S_, .f32⟩
  | 115 => ⟨S50000x1, .f32⟩
  | 116 => ⟨S640000x1, .i32⟩
  | 117 => ⟨S50000x1, .f32⟩
  | 118 => ⟨S_, .f32⟩
  | 119 => ⟨S640000x1, .f32⟩
  | 120 => ⟨S_, .f32⟩
  | 121 => ⟨S50000x1, .f32⟩
  | 122 => ⟨S640000x1, .i32⟩
  | 123 => ⟨S50000x1, .f32⟩
  | 124 => ⟨S_, .f32⟩
  | 125 => ⟨S50000x1, .f32⟩
  | 126 => ⟨S50000x1, .f32⟩
  | 127 => ⟨S50000x1, .f32⟩
  | _ => ⟨S50000x128, .f32⟩

abbrev hbmTy0_2 (i : Nat) : BufTy := match i % 128 with
  | 0 => ⟨S50000x1x128, .f32⟩
  | 1 => ⟨S50000x1x128, .f32⟩
  | 2 => ⟨S50000x2x128, .f32⟩
  | 3 => ⟨S50000x1x1, .f32⟩
  | 4 => ⟨S50000x1x1, .f32⟩
  | 5 => ⟨S50000x2x1, .f32⟩
  | 6 => ⟨S_, .f32⟩
  | 7 => ⟨S50000x1, .f32⟩
  | 8 => ⟨S_, .f32⟩
  | 9 => ⟨S50000x1, .f32⟩
  | 10 => ⟨S50000x1, .f32⟩
  | 11 => ⟨S50000x1x1, .f32⟩
  | 12 => ⟨S50000x2x1, .f32⟩
  | 13 => ⟨S50000x2x1, .f32⟩
  | 14 => ⟨S50000x2x1, .f32⟩
  | 15 => ⟨S_, .f32⟩
  | 16 => ⟨S50000x1, .f32⟩
  | 17 => ⟨S50000x1x1, .f32⟩
  | 18 => ⟨S50000x2x1, .f32⟩
  | 19 => ⟨S50000x2x1, .f32⟩
  | 20 => ⟨S50000x2x128, .f32⟩
  | 21 => ⟨S50000x2x128, .f32⟩
  | 22 => ⟨S_, .f32⟩
  | 23 => ⟨S50000x128, .f32⟩
  | 24 => ⟨S50000x1x128, .f32⟩
  | 25 => ⟨S50000x1x128, .f32⟩
  | 26 => ⟨S50000x2x128, .f32⟩
  | 27 => ⟨S50000x1x1, .f32⟩
  | 28 => ⟨S50000x1x1, .f32⟩
  | 29 => ⟨S50000x2x1, .f32⟩
  | 30 => ⟨S_, .f32⟩
  | 31 => ⟨S50000x1, .f32⟩
  | 32 => ⟨S_, .f32⟩
  | 33 => ⟨S50000x1, .f32⟩
  | 34 => ⟨S50000x1, .f32⟩
  | 35 => ⟨S50000x1x1, .f32⟩
  | 36 => ⟨S50000x2x1, .f32⟩
  | 37 => ⟨S50000x2x1, .f32⟩
  | 38 => ⟨S50000x2x1, .f32⟩
  | 39 => ⟨S_, .f32⟩
  | 40 => ⟨S50000x1, .f32⟩
  | 41 => ⟨S50000x1x1, .f32⟩
  | 42 => ⟨S50000x2x1, .f32⟩
  | 43 => ⟨S50000x2x1, .f32⟩
  | 44 => ⟨S50000x2x128, .f32⟩
  | 45 => ⟨S50000x2x128, .f32⟩
  | 46 => ⟨S_, .f32⟩
  | 47 => ⟨S50000x128, .f32⟩
  | 48 => ⟨S1x50000x128, .f32⟩
  | 49 => ⟨S1x50000x128, .f32⟩
  | 50 => ⟨S2x50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_call0_v0 : Ref sig .tc := ⟨.hbm, 51, rfl⟩
abbrev main_call0_cst : Ref sig .tc := ⟨.hbm, 52, rfl⟩
abbrev main_call0_v1 : Ref sig .tc := ⟨.hbm, 53, rfl⟩
abbrev main_v28 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_9 : Ref sig .tc := ⟨.hbm, 87, rfl⟩
abbrev main_v52 : Ref sig .tc := ⟨.hbm, 88, rfl⟩
abbrev main_v53 : Ref sig .tc := ⟨.hbm, 89, rfl⟩
abbrev main_c_10 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_11 : Ref sig .tc := ⟨.hbm, 96, rfl⟩
abbrev main_v59 : Ref sig .tc := ⟨.hbm, 97, rfl⟩
abbrev main_v60 : Ref sig .tc := ⟨.hbm, 98, rfl⟩
abbrev main_c_12 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_13 : Ref sig .tc := ⟨.hbm, 106, rfl⟩
abbrev main_v67 : Ref sig .tc := ⟨.hbm, 107, rfl⟩
abbrev main_call2_v0 : Ref sig .tc := ⟨.hbm, 108, rfl⟩
abbrev main_call2_cst : Ref sig .tc := ⟨.hbm, 109, rfl⟩
abbrev main_call2_v1 : Ref sig .tc := ⟨.hbm, 110, rfl⟩
abbrev main_v68 : Ref sig .tc := ⟨.hbm, 111, rfl⟩
abbrev main_call3_v0 : Ref sig .tc := ⟨.hbm, 112, rfl⟩
abbrev main_call3_cst : Ref sig .tc := ⟨.hbm, 113, rfl⟩
abbrev main_call3_v1 : Ref sig .tc := ⟨.hbm, 114, rfl⟩
abbrev main_v69 : Ref sig .tc := ⟨.hbm, 115, rfl⟩
abbrev main_v70 : Ref sig .tc := ⟨.hbm, 116, rfl⟩
abbrev main_cst_14 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_15 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_16 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_17 : Ref sig .tc := ⟨.hbm, 132, rfl⟩
abbrev main_v83 : Ref sig .tc := ⟨.hbm, 133, rfl⟩
abbrev main_cst_18 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_19 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_20 : Ref sig .tc := ⟨.hbm, 144, rfl⟩
abbrev main_v92 : Ref sig .tc := ⟨.hbm, 145, rfl⟩
abbrev main_v93 : Ref sig .tc := ⟨.hbm, 146, rfl⟩
abbrev main_c_21 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_22 : Ref sig .tc := ⟨.hbm, 153, rfl⟩
abbrev main_v99 : Ref sig .tc := ⟨.hbm, 154, rfl⟩
abbrev main_v100 : Ref sig .tc := ⟨.hbm, 155, rfl⟩
abbrev main_c_23 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_24 : Ref sig .tc := ⟨.hbm, 163, rfl⟩
abbrev main_v107 : Ref sig .tc := ⟨.hbm, 164, rfl⟩
abbrev main_call4_v0 : Ref sig .tc := ⟨.hbm, 165, rfl⟩
abbrev main_call4_cst : Ref sig .tc := ⟨.hbm, 166, rfl⟩
abbrev main_call4_v1 : Ref sig .tc := ⟨.hbm, 167, rfl⟩
abbrev main_v108 : Ref sig .tc := ⟨.hbm, 168, rfl⟩
abbrev main_call5_v0 : Ref sig .tc := ⟨.hbm, 169, rfl⟩
abbrev main_call5_cst : Ref sig .tc := ⟨.hbm, 170, rfl⟩
abbrev main_call5_v1 : Ref sig .tc := ⟨.hbm, 171, rfl⟩
abbrev main_v109 : Ref sig .tc := ⟨.hbm, 172, rfl⟩
abbrev main_v110 : Ref sig .tc := ⟨.hbm, 173, rfl⟩
abbrev main_cst_25 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_cst_26 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_cst_27 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_28 : Ref sig .tc := ⟨.hbm, 189, rfl⟩
abbrev main_v123 : Ref sig .tc := ⟨.hbm, 190, rfl⟩
abbrev main_cst_29 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_cst_30 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_c_31 : Ref sig .tc := ⟨.hbm, 201, rfl⟩
abbrev main_v132 : Ref sig .tc := ⟨.hbm, 202, rfl⟩
abbrev main_v133 : Ref sig .tc := ⟨.hbm, 203, rfl⟩
abbrev main_c_32 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_c_33 : Ref sig .tc := ⟨.hbm, 210, rfl⟩
abbrev main_v139 : Ref sig .tc := ⟨.hbm, 211, rfl⟩
abbrev main_v140 : Ref sig .tc := ⟨.hbm, 212, rfl⟩
abbrev main_c_34 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_cst_35 : Ref sig .tc := ⟨.hbm, 220, rfl⟩
abbrev main_v147 : Ref sig .tc := ⟨.hbm, 221, rfl⟩
abbrev main_call6_v0 : Ref sig .tc := ⟨.hbm, 222, rfl⟩
abbrev main_call6_cst : Ref sig .tc := ⟨.hbm, 223, rfl⟩
abbrev main_call6_v1 : Ref sig .tc := ⟨.hbm, 224, rfl⟩
abbrev main_v148 : Ref sig .tc := ⟨.hbm, 225, rfl⟩
abbrev main_call7_v0 : Ref sig .tc := ⟨.hbm, 226, rfl⟩
abbrev main_call7_cst : Ref sig .tc := ⟨.hbm, 227, rfl⟩
abbrev main_call7_v1 : Ref sig .tc := ⟨.hbm, 228, rfl⟩
abbrev main_v149 : Ref sig .tc := ⟨.hbm, 229, rfl⟩
abbrev main_v150 : Ref sig .tc := ⟨.hbm, 230, rfl⟩
abbrev main_cst_36 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_cst_37 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_cst_38 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_cst_39 : Ref sig .tc := ⟨.hbm, 246, rfl⟩
abbrev main_v163 : Ref sig .tc := ⟨.hbm, 247, rfl⟩
abbrev main_cst_40 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_cst_41 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_cst_42 : Ref sig .tc := ⟨.hbm, 262, rfl⟩
abbrev main_v176 : Ref sig .tc := ⟨.hbm, 263, rfl⟩
abbrev main_cst_43 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_cst_44 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_cst_45 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_cst_46 : Ref sig .tc := ⟨.hbm, 286, rfl⟩
abbrev main_v196 : Ref sig .tc := ⟨.hbm, 287, rfl⟩
abbrev main_cst_47 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_cst_48 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_cst_49 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S640000 : S_.BroadcastsInDim S640000 (![] : Fin 0 → Fin S640000.rank)
  bcast_S640000_S640000x1_0 : S640000.BroadcastsInDim S640000x1 (![0] : Fin 1 → Fin S640000x1.rank)
  reducesTo_S640000x128_S640000_d1 : S640000x128.ReducesTo [1] S640000
  h_S_ : 0 < S_.numel
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S_S640000x1 : S_.BroadcastsInDim S640000x1 (![] : Fin 0 → Fin S640000x1.rank)
  bcast_S50000x128_S50000x1x128_0_2 : S50000x128.BroadcastsInDim S50000x1x128 (![0, 2] : Fin 2 → Fin S50000x1x128.rank)
  concatenates_S50000x1x128_S50000x1x128_S50000x2x128_d1 : Shape.Concatenates [S50000x1x128, S50000x1x128] S50000x2x128 1
  bcast_S50000x1_S50000x1x1_0_2 : S50000x1.BroadcastsInDim S50000x1x1 (![0, 2] : Fin 2 → Fin S50000x1x1.rank)
  concatenates_S50000x1x1_S50000x1x1_S50000x2x1_d1 : Shape.Concatenates [S50000x1x1, S50000x1x1] S50000x2x1 1
  reducesTo_S50000x2x1_S50000x1_d1 : S50000x2x1.ReducesTo [1] S50000x1
  bcast_S50000x1x1_S50000x2x1_0_1_2 : S50000x1x1.BroadcastsInDim S50000x2x1 (![0, 1, 2] : Fin 3 → Fin S50000x2x1.rank)
  bcast_S50000x2x1_S50000x2x128_0_1_2 : S50000x2x1.BroadcastsInDim S50000x2x128 (![0, 1, 2] : Fin 3 → Fin S50000x2x128.rank)
  reducesTo_S50000x2x128_S50000x128_d1 : S50000x2x128.ReducesTo [1] S50000x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf

class Facts : Prop extends Facts₀ where

variable [Facts]
-- ==== Proof.KRegion0.lean ====
import proofs.«412146_j64725157151125_3_alg».proof.Proof.Gen.Kernel.Launch
import proofs.«412146_j64725157151125_3_alg».proof.Proof.Gen.Kernel.Skeleton
import proofs.«412146_j64725157151125_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

def out0_5 (x0 : Vec F S5000x128 .f32) (x1 : Vec F S128x128 .f32) (x4 : Vec F S1x128 .f32) : Vec F S5000x128 .f32 :=
  View.canon [⟨r0_0, k0_pay2 (View.ld x0 r0_0) (View.ld x1 r0_1) (View.ld x4 r0_2)⟩]

def out0_6 (x0 : Vec F S5000x128 .f32) (x2 : Vec F S128x128 .f32) : Vec F S5000x128 .f32 :=
  View.canon [⟨r0_0, k0_pay3 (View.ld x0 r0_0) (View.ld x2 r0_1)⟩]

def out0_7 (x0 : Vec F S5000x128 .f32) (x3 : Vec F S128x128 .f32) : Vec F S5000x128 .f32 :=
  View.canon [⟨r0_0, k0_pay4 (View.ld x0 r0_0) (View.ld x3 r0_1)⟩]

/-- The body reads its five inputs and overwrites each output buffer whole, so what it leaves there is a function of the inputs alone. -/
theorem sound_kernel0 (c : Dev nD) (E : Set ℕ) (i : grid0.Coords) {arg0 arg5 arg6 arg7 : Memref sig .tc .vmem S5000x128 .f32} {arg1 arg2 arg3 : Memref sig .tc .vmem S128x128 .f32} {arg4 : Memref sig .tc .vmem S1x128 .f32}
    (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole)
    {x0 : Vec F S5000x128 .f32} {x1 x2 x3 : Vec F S128x128 .f32} {x4 : Vec F S1x128 .f32} (K : PUnit → sProp 𝕄) :
    iprop(owns c.tc arg0 fullShare x0 ∗ owns c.tc arg1 fullShare x1 ∗ owns c.tc arg2 fullShare x2 ∗ owns c.tc arg3 fullShare x3 ∗ owns c.tc arg4 fullShare x4 ∗ (∃ d, owns c.tc arg5 fullShare d) ∗ (∃ d, owns c.tc arg6 fullShare d) ∗ (∃ d, owns c.tc arg7 fullShare d)
        ∗ (iprop(owns c.tc arg5 fullShare (out0_5 x0 x1 x4) ∗ owns c.tc arg6 fullShare (out0_6 x0 x2) ∗ owns c.tc arg7 fullShare (out0_7 x0 x3) ∗ owns c.tc arg0 fullShare x0 ∗ owns c.tc arg1 fullShare x1 ∗ owns c.tc arg2 fullShare x2 ∗ owns c.tc arg3 fullShare x3 ∗ owns c.tc arg4 fullShare x4) -∗ K ⟨⟩))
      ⊢ wp frame (wpE (defs₀ (F := F)) Variants.none c none) E (cc0__proj3_kernel i arg0 harg0 arg1 harg1 arg2 harg2 arg3 harg3 arg4 harg4 arg5 harg5 arg6 harg6 arg7 harg7) K := by
  simp only [cc0__proj3_kernel_eq_skeleton]; unfold cc0__proj3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec!
  sl_step
  iapply Hk
  isplitl [H5]
  · iexists _; isplitr
    swap; · iexact H5
    ipureintro; exact View.read_writes_junk_eq_canon _ _
  isplitl [H6]
  · iexists _; isplitr
    swap; · iexact H6
    ipureintro; exact View.read_writes_junk_eq_canon _ _
  isplitl [H7]
  · iexists _; isplitr
    swap; · iexact H7
    ipureintro; exact View.read_writes_junk_eq_canon _ _
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 4 t)
    | ⟨6, _⟩ => out0_6 (iblk0 V c 0 t) (iblk0 V c 2 t)
    | ⟨7, _⟩ => out0_7 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = out0_5 (iblk0 V c 0 t) (iblk0 V c 1 t) (iblk0 V c 4 t) := by dsimp only [dat0]
theorem after0_6 (c : Dev nD) (t : Fin cfg0.N) : (dat0 V c).after 6 t = out0_6 (iblk0 V c 0 t) (iblk0 V c 2 t) := by dsimp only [dat0]
theorem after0_7 (c : Dev nD) (t : Fin cfg0.N) : (dat0 V c).after 7 t = out0_7 (iblk0 V c 0 t) (iblk0 V c 3 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) := by
  refine ⟨?_, ?_, ?_, ?_, ?_⟩ <;> intro d <;>
    exact ((dat0 V c).before_in_eq_fetched _ rfl (fun _ => rfl) (fun _ _ _ => rfl) (fun _ => by unfold Dat.blockOf; rfl) t d).trans (by unfold Dat.fetched Dat.blockOf; rfl)

theorem body_obligation0 (c : Dev nD) : BodyObligation (dat0 (F := F) V c) (defs₀ (F := F)) Variants.none () Set.univ := fun t => by
  obtain ⟨ha, hb, hc, hd, he⟩ := before0 V c t
  rewrite [bigSep_W0, bigSep_W0]
  simp only [ha, hb, hc, hd, he, after0_5, after0_6, after0_7,
    show (dat0 V c).Φ t.succ = (dat0 V c).Φ t.castSucc from rfl, show (dat0 V c).owesAt () t.succ = (dat0 V c).owesAt () t.castSucc from rfl]
  change _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _)
  iframe H0 H1 H2 H3 H4
  isplitl [H5]; · iexists _; iexact H5
  isplitl [H6]; · iexists _; iexact H6
  isplitl [H7]; · iexists _; iexact H7
  iintro ⟨H5, H6, H7, H⟩
  iframe HΦ Ho H5 H6 H7
  iexact H

end Cert.Kernel.Gen

end
-- ==== Proof.KRegion1.lean ====
import proofs.«412146_j64725157151125_3_alg».proof.Proof.Gen.Kernel.Launch
import proofs.«412146_j64725157151125_3_alg».proof.Proof.Gen.Kernel.Skeleton
import proofs.«412146_j64725157151125_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

def out1_5 (x0 : Vec F S5000x128 .f32) (x1 : Vec F S128x128 .f32) (x4 : Vec F S1x128 .f32) : Vec F S5000x128 .f32 :=
  View.canon [⟨r1_0, k1_pay2 (View.ld x0 r1_0) (View.ld x1 r1_1) (View.ld x4 r1_2)⟩]

def out1_6 (x0 : Vec F S5000x128 .f32) (x2 : Vec F S128x128 .f32) : Vec F S5000x128 .f32 :=
  View.canon [⟨r1_0, k1_pay3 (View.ld x0 r1_0) (View.ld x2 r1_1)⟩]

def out1_7 (x0 : Vec F S5000x128 .f32) (x3 : Vec F S128x128 .f32) : Vec F S5000x128 .f32 :=
  View.canon [⟨r1_0, k1_pay4 (View.ld x0 r1_0) (View.ld x3 r1_1)⟩]

/-- The body reads its five inputs and overwrites each output buffer whole, so what it leaves there is a function of the inputs alone. -/
theorem sound_kernel1 (c : Dev nD) (E : Set ℕ) (i : grid1.Coords) {arg0 arg5 arg6 arg7 : Memref sig .tc .vmem S5000x128 .f32} {arg1 arg2 arg3 : Memref sig .tc .vmem S128x128 .f32} {arg4 : Memref sig .tc .vmem S1x128 .f32}
    (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole)
    {x0 : Vec F S5000x128 .f32} {x1 x2 x3 : Vec F S128x128 .f32} {x4 : Vec F S1x128 .f32} (K : PUnit → sProp 𝕄) :
    iprop(owns c.tc arg0 fullShare x0 ∗ owns c.tc arg1 fullShare x1 ∗ owns c.tc arg2 fullShare x2 ∗ owns c.tc arg3 fullShare x3 ∗ owns c.tc arg4 fullShare x4 ∗ (∃ d, owns c.tc arg5 fullShare d) ∗ (∃ d, owns c.tc arg6 fullShare d) ∗ (∃ d, owns c.tc arg7 fullShare d)
        ∗ (iprop(owns c.tc arg5 fullShare (out1_5 x0 x1 x4) ∗ owns c.tc arg6 fullShare (out1_6 x0 x2) ∗ owns c.tc arg7 fullShare (out1_7 x0 x3) ∗ owns c.tc arg0 fullShare x0 ∗ owns c.tc arg1 fullShare x1 ∗ owns c.tc arg2 fullShare x2 ∗ owns c.tc arg3 fullShare x3 ∗ owns c.tc arg4 fullShare x4) -∗ K ⟨⟩))
      ⊢ wp frame (wpE (defs₀ (F := F)) Variants.none c none) E (cc1__proj3_kernel i arg0 harg0 arg1 harg1 arg2 harg2 arg3 harg3 arg4 harg4 arg5 harg5 arg6 harg6 arg7 harg7) K := by
  simp only [cc1__proj3_kernel_eq_skeleton]; unfold cc1__proj3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec!
  sl_step
  iapply Hk
  isplitl [H5]
  · iexists _; isplitr
    swap; · iexact H5
    ipureintro; exact View.read_writes_junk_eq_canon _ _
  isplitl [H6]
  · iexists _; isplitr
    swap; · iexact H6
    ipureintro; exact View.read_writes_junk_eq_canon _ _
  isplitl [H7]
  · iexists _; isplitr
    swap; · iexact H7
    ipureintro; exact View.read_writes_junk_eq_canon _ _
  sl_close

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 4 t)
    | ⟨6, _⟩ => out1_6 (iblk1 V c 0 t) (iblk1 V c 2 t)
    | ⟨7, _⟩ => out1_7 (iblk1 V c 0 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t = out1_5 (iblk1 V c 0 t) (iblk1 V c 1 t) (iblk1 V c 4 t) := by dsimp only [dat1]
theorem after1_6 (c : Dev nD) (t : Fin cfg1.N) : (dat1 V c).after 6 t = out1_6 (iblk1 V c 0 t) (iblk1 V c 2 t) := by dsimp only [dat1]
theorem after1_7 (c : Dev nD) (t : Fin cfg1.N) : (dat1 V c).after 7 t = out1_7 (iblk1 V c 0 t) (iblk1 V c 3 t) := by dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) := by
  refine ⟨?_, ?_, ?_, ?_, ?_⟩ <;> intro d <;>
    exact ((dat1 V c).before_in_eq_fetched _ rfl (fun _ => rfl) (fun _ _ _ => rfl) (fun _ => by unfold Dat.blockOf; rfl) t d).trans (by unfold Dat.fetched Dat.blockOf; rfl)

theorem body_obligation1 (c : Dev nD) : BodyObligation (dat1 (F := F) V c) (defs₀ (F := F)) Variants.none () Set.univ := fun t => by
  obtain ⟨ha, hb, hc, hd, he⟩ := before1 V c t
  rewrite [bigSep_W1, bigSep_W1]
  simp only [ha, hb, hc, hd, he, after1_5, after1_6, after1_7,
    show (dat1 V c).Φ t.succ = (dat1 V c).Φ t.castSucc from rfl, show (dat1 V c).owesAt () t.succ = (dat1 V c).owesAt () t.castSucc from rfl]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _)
  iframe H0 H1 H2 H3 H4
  isplitl [H5]; · iexists _; iexact H5
  isplitl [H6]; · iexists _; iexact H6
  isplitl [H7]; · iexists _; iexact H7
  iintro ⟨H5, H6, H7, H⟩
  iframe HΦ Ho H5 H6 H7
  iexact H

end Cert.Kernel.Gen

end
-- ==== Proof.KRegion2.lean ====
import proofs.«412146_j64725157151125_3_alg».proof.Proof.Gen.Kernel.Launch
import proofs.«412146_j64725157151125_3_alg».proof.Proof.Gen.Kernel.Skeleton
import proofs.«412146_j64725157151125_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0

def out2_4 (xa : Vec F S5000x128 .f32) (xb : Vec F S5000x128 .f32) (xc : Vec F S5000x1 .f32) (xd : Vec F S5000x1 .f32) : Vec F S5000x128 .f32 :=
  View.canon [⟨r2_0, k2_pay1 (View.ld xc r2_1) (View.ld xd r2_1) (View.ld xa r2_0) (View.ld xb r2_0)⟩]

/-- The body reads its four inputs and overwrites the whole output with `out2_4` of what it read. -/
theorem sound_kernel2 (c : Dev nD) (E : Set ℕ) (i : grid2.Coords) {xa xb : Vec F S5000x128 .f32} {xc xd : Vec F S5000x1 .f32}
    {ma mb mo : Memref sig .tc .vmem S5000x128 .f32} {mc md : Memref sig .tc .vmem S5000x1 .f32}
    (hma : ma.IsWhole) (hmb : mb.IsWhole) (hmc : mc.IsWhole) (hmd : md.IsWhole) (hmo : mo.IsWhole) (K : PUnit → sProp 𝕄) :
    iprop(owns c ma fullShare xa ∗ owns c mb fullShare xb ∗ owns c mc fullShare xc ∗ owns c md fullShare xd ∗ (∃ d, owns c mo fullShare d)
        ∗ (owns c ma fullShare xa ∗ owns c mb fullShare xb ∗ owns c mc fullShare xc ∗ owns c md fullShare xd
            ∗ owns c mo fullShare (out2_4 xa xb xc xd) -∗ K ⟨⟩))
      ⊢ wp frame (wpE (defs₀ (F := F)) Variants.none c none) E (cc2__combine_kernel i ma hma mb hmb mc hmc md hmd mo hmo) K := by
  simp only [cc2__combine_kernel_eq_skeleton]; unfold cc2__combine_kernel_skel owns
  iintro ⟨⟨%fa, %hfa, Ha⟩, ⟨%fb, %hfb, Hb⟩, ⟨%fc, %hfc, Hc⟩, ⟨%fd, %hfd, Hd⟩, ⟨%dO, %fo, -, Ho⟩, Hk⟩
  subst hfa hfb hfc hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact Ho
  ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

/-- `before` of every input window is that window's block of `V`, at every point and over any `d`. -/
theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ ∀ d, (dat2 V c).before 3 t d = iblk2 V c 3 t := by
  refine ⟨?_, ?_, ?_, ?_⟩ <;> exact
    (dat2 V c).before_in_eq_fetched _ rfl (fun _ => rfl) (fun _ _ _ => rfl) (fun _ => by dsimp only [dat2]; rfl) t

/-- The body's triple at the blocks `before2` names; the rest of the obligation is framed. -/
theorem body_obligation2 (c : Dev nD) : BodyObligation (dat2 (F := F) V c) (defs₀ (F := F)) Variants.none () Set.univ := fun t => by
  show iprop(_ ∗ _ ∗ bigSep _ fun w => iprop(∃ d, owns _ _ _ ((dat2 V c).before w t d))) ⊢ wp _ _ _ (bodyAt2 t) fun _ =>
    iprop(_ ∗ _ ∗ bigSep _ fun w => owns _ _ _ ((dat2 V c).after w t))
  rw [bigSep_W2, bigSep_W2]
  simp only [before2 V c t]
  dsimp only [dat2]
  iintro ⟨HΦ, Hw, ⟨%da, Ha⟩, ⟨%db, Hb⟩, ⟨%dc, Hc⟩, ⟨%dd, Hd⟩, ⟨%dO, Ho⟩⟩
  iapply sound_kernel2
  iframe Ha Hb Hc Hd
  isplitl [Ho]; · iexists _; iexact Ho
  iintro H
  iframe
  iexact Hw

end Region

end Cert.Kernel.Gen

end
-- ==== Proof.KRegion3.lean ====
import proofs.«412146_j64725157151125_3_alg».proof.Proof.Gen.Kernel.Launch
import proofs.«412146_j64725157151125_3_alg».proof.Proof.Gen.Kernel.Skeleton
import proofs.«412146_j64725157151125_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S5000x1 := Rect.unit (s := S5000x1) ![0, 0] S5000x1.size inb_S5000x1_S5000x1_0_0

def out3_4 (xa : Vec F S5000x128 .f32) (xb : Vec F S5000x128 .f32) (xc : Vec F S5000x1 .f32) (xd : Vec F S5000x1 .f32) : Vec F S5000x128 .f32 :=
  View.canon [⟨r3_0, k3_pay1 (View.ld xc r3_1) (View.ld xd r3_1) (View.ld xa r3_0) (View.ld xb r3_0)⟩]

/-- The body reads its four inputs and overwrites the whole output with `out3_4` of what it read. -/
theorem sound_kernel3 (c : Dev nD) (E : Set ℕ) (i : grid3.Coords) {xa xb : Vec F S5000x128 .f32} {xc xd : Vec F S5000x1 .f32}
    {ma mb mo : Memref sig .tc .vmem S5000x128 .f32} {mc md : Memref sig .tc .vmem S5000x1 .f32}
    (hma : ma.IsWhole) (hmb : mb.IsWhole) (hmc : mc.IsWhole) (hmd : md.IsWhole) (hmo : mo.IsWhole) (K : PUnit → sProp 𝕄) :
    iprop(owns c ma fullShare xa ∗ owns c mb fullShare xb ∗ owns c mc fullShare xc ∗ owns c md fullShare xd ∗ (∃ d, owns c mo fullShare d)
        ∗ (owns c ma fullShare xa ∗ owns c mb fullShare xb ∗ owns c mc fullShare xc ∗ owns c md fullShare xd
            ∗ owns c mo fullShare (out3_4 xa xb xc xd) -∗ K ⟨⟩))
      ⊢ wp frame (wpE (defs₀ (F := F)) Variants.none c none) E (cc3__combine_kernel i ma hma mb hmb mc hmc md hmd mo hmo) K := by
  simp only [cc3__combine_kernel_eq_skeleton]; unfold cc3__combine_kernel_skel owns
  iintro ⟨⟨%fa, %hfa, Ha⟩, ⟨%fb, %hfb, Hb⟩, ⟨%fc, %hfc, Hc⟩, ⟨%fd, %hfd, Hd⟩, ⟨%dO, %fo, -, Ho⟩, Hk⟩
  subst hfa hfb hfc hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact Ho
  ipureintro
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) :
    (dat3 V c).after 4 t = out3_4 (iblk3 V c 0 t) (iblk3 V c 1 t) (iblk3 V c 2 t) (iblk3 V c 3 t) := by dsimp only [dat3]

/-- `before` of every input window is that window's block of `V`, at every point and over any `d`. -/
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ ∀ d, (dat3 V c).before 3 t d = iblk3 V c 3 t := by
  refine ⟨?_, ?_, ?_, ?_⟩ <;> exact
    (dat3 V c).before_in_eq_fetched _ rfl (fun _ => rfl) (fun _ _ _ => rfl) (fun _ => by dsimp only [dat3]; rfl) t

/-- The body's triple at the blocks `before3` names; the rest of the obligation is framed. -/
theorem body_obligation3 (c : Dev nD) : BodyObligation (dat3 (F := F) V c) (defs₀ (F := F)) Variants.none () Set.univ := fun t => by
  show iprop(_ ∗ _ ∗ bigSep _ fun w => iprop(∃ d, owns _ _ _ ((dat3 V c).before w t d))) ⊢ wp _ _ _ (bodyAt3 t) fun _ =>
    iprop(_ ∗ _ ∗ bigSep _ fun w => owns _ _ _ ((dat3 V c).after w t))
  rw [bigSep_W3, bigSep_W3]
  simp only [before3 V c t]
  dsimp only [dat3]
  iintro ⟨HΦ, Hw, ⟨%da, Ha⟩, ⟨%db, Hb⟩, ⟨%dc, Hc⟩, ⟨%dd, Hd⟩, ⟨%dO, Ho⟩⟩
  iapply sound_kernel3
  iframe Ha Hb Hc Hd
  isplitl [Ho]; · iexists _; iexact Ho
  iintro H
  iframe
  iexact Hw

end Region

end Cert.Kernel.Gen

end
-- ==== Proof.KFrame.lean ====
import proofs.«412146_j64725157151125_3_alg».proof.Proof.KRegion0
import proofs.«412146_j64725157151125_3_alg».proof.Proof.KRegion1
import proofs.«412146_j64725157151125_3_alg».proof.Proof.KRegion2
import proofs.«412146_j64725157151125_3_alg».proof.Proof.KRegion3
import proofs.«412146_j64725157151125_3_alg».proof.Proof.Gen.Kernel.Regions
import Idealize.ShloMosaic.Lib.Pipeline.RegionsLoop
import Idealize.ShloMosaic.Lib.Pipeline.FrameSuffix

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

/-- A chain of updates at the keys `k i`, `i ∈ l`, by the values `g i` leaves every other key as it was, -/
theorem foldl_update_of_ne {ι κ : Type} [DecidableEq κ] {β : κ → Type} (k : ι → κ) (g : ∀ i, β (k i)) :
    ∀ (l : List ι) (f : ∀ a, β a) (a : κ), (∀ i ∈ l, k i ≠ a) → l.foldl (fun f i => Function.update f (k i) (g i)) f a = f a
  | [], _, _, _ => rfl
  | j :: l, _, a, h => (foldl_update_of_ne k g l _ a fun i hi => h i (.tail _ hi)).trans (Function.update_of_ne (h j (.head _)).symm _ _)

/-- in particular the key of an `i ∉ l`, `k` being injective, -/
theorem foldl_update_of_not_mem {ι κ : Type} [DecidableEq κ] {β : κ → Type} {k : ι → κ} (hk : Function.Injective k) (g : ∀ i, β (k i))
    (l : List ι) (f : ∀ a, β a) {i : ι} (hi : i ∉ l) : l.foldl (fun f i => Function.update f (k i) (g i)) f (k i) = f (k i) :=
  foldl_update_of_ne k g l f (k i) fun _ hj e => hi (hk e ▸ hj)

/-- and holds `g i` at the key of every `i ∈ l`. -/
theorem foldl_update_of_mem {ι κ : Type} [DecidableEq ι] [DecidableEq κ] {β : κ → Type} {k : ι → κ} (hk : Function.Injective k) (g : ∀ i, β (k i)) :
    ∀ (l : List ι) (f : ∀ a, β a) (i : ι), i ∈ l → l.foldl (fun f i => Function.update f (k i) (g i)) f (k i) = g i
  | [], _, _, h => nomatch h
  | j :: l, _, i, h =>
    if hi : i ∈ l then foldl_update_of_mem hk g l _ i hi
    else by
      cases (List.mem_cons.1 h).resolve_right hi
      exact (foldl_update_of_not_mem hk g l _ hi).trans (Function.update_self ..)

def X2 (c : Dev nD) : Valuation τ sig (Elt F) :=
  Pipeline.withArrays spec0 c (V1 m c) fun w => (dat0 (atTc (V1 m)) c).arrAt w cfg0.N

def outsA : Outs (F := F) := fun J r c => match J with
  | 2 => X2 m c r
  | _ => V0 m c r

def X4 (c : Dev nD) : Valuation τ sig (Elt F) :=
  Pipeline.withArrays spec1 c (V3 m (outsA m) c) fun w => (dat1 (atTc (V3 m (outsA m))) c).arrAt w cfg1.N

def outsB : Outs (F := F) := fun J r c => match J with
  | 2 => X2 m c r
  | 4 => X4 m c r
  | _ => V0 m c r

def X29 (c : Dev nD) : Valuation τ sig (Elt F) :=
  Pipeline.withArrays spec2 c (V28 m (outsB m) c) fun w => (dat2 (atTc (V28 m (outsB m))) c).arrAt w cfg2.N

def outsC : Outs (F := F) := fun J r c => match J with
  | 2 => X2 m c r
  | 4 => X4 m c r
  | 29 => X29 m c r
  | _ => V0 m c r

def X30 (c : Dev nD) : Valuation τ sig (Elt F) :=
  Pipeline.withArrays spec3 c (V29 m (outsC m) c) fun w => (dat3 (atTc (V29 m (outsC m))) c).arrAt w cfg3.N

def outs : Outs (F := F) := fun J r c => match J with
  | 2 => X2 m c r
  | 4 => X4 m c r
  | 29 => X29 m c r
  | 30 => X30 m c r
  | _ => V0 m c r

/-- What a region leaves at its window `w`'s array is the proof data's final array. -/
theorem withArrays_out {cfg : Cfg sig Λ₀} (hinj : Function.Injective (Pipeline.arrRef cfg.spec)) (c : Dev nD) (V : Valuation τ sig (Elt F))
    (d : Dat τ (Elt F) Unit ℕ (UR sig nD τ) ℕ cfg c) (w : Fin cfg.W) :
    Pipeline.withArrays cfg.spec c V (fun w => d.arrAt w cfg.N) (Proc.devRef .tc (Pipeline.arrRef cfg.spec w)) = d.arrAt w cfg.N :=
  Pipeline.withArrays_arr cfg.spec hinj c V _ w

theorem outs_2_v4_0 (c : Dev nD) : outs m 2 main_v4_0 c = (dat0 (atTc (V1 m)) c).arrAt 5 cfg0.N := withArrays_out launch0.win.arr_inj c (V1 m c) _ 5

theorem outs_2_v4_1 (c : Dev nD) : outs m 2 main_v4_1 c = (dat0 (atTc (V1 m)) c).arrAt 6 cfg0.N := withArrays_out launch0.win.arr_inj c (V1 m c) _ 6

theorem outs_2_v4_2 (c : Dev nD) : outs m 2 main_v4_2 c = (dat0 (atTc (V1 m)) c).arrAt 7 cfg0.N := withArrays_out launch0.win.arr_inj c (V1 m c) _ 7

theorem outs_4_v9_0 (c : Dev nD) : outs m 4 main_v9_0 c = (dat1 (atTc (V3 m (outs m))) c).arrAt 5 cfg1.N := withArrays_out launch1.win.arr_inj c (V3 m (outs m) c) _ 5

theorem outs_4_v9_1 (c : Dev nD) : outs m 4 main_v9_1 c = (dat1 (atTc (V3 m (outs m))) c).arrAt 6 cfg1.N := withArrays_out launch1.win.arr_inj c (V3 m (outs m) c) _ 6

theorem outs_4_v9_2 (c : Dev nD) : outs m 4 main_v9_2 c = (dat1 (atTc (V3 m (outs m))) c).arrAt 7 cfg1.N := withArrays_out launch1.win.arr_inj c (V3 m (outs m) c) _ 7

theorem outs_29_v106 (c : Dev nD) : outs m 29 main_v106 c = (dat2 (atTc (V28 m (outs m))) c).arrAt 4 cfg2.N := withArrays_out launch2.win.arr_inj c (V28 m (outs m) c) _ 4

theorem outs_30_v107 (c : Dev nD) : outs m 30 main_v107 c = (dat3 (atTc (V29 m (outs m))) c).arrAt 4 cfg3.N := withArrays_out launch3.win.arr_inj c (V29 m (outs m) c) _ 4

def pdats : (p : Fin 4) → (c : Dev nD) → Dat τ (Elt F) Unit ℕ (UR sig nD τ) ℕ (cfgs p) c
  | ⟨0, _⟩ => fun c => dat0 (atTc (V1 m)) c
  | ⟨1, _⟩ => fun c => dat1 (atTc (V3 m (outs m))) c
  | ⟨2, _⟩ => fun c => dat2 (atTc (V28 m (outs m))) c
  | ⟨3, _⟩ => fun c => dat3 (atTc (V29 m (outs m))) c

abbrev 𝒱₀ : Variants := Variants.none

abbrev L : GSem nD τ sig → Finset Unit := fun _ => ∅

abbrev lv : GSem nD τ sig → Unit → ℕ := fun _ _ => 0

abbrev Rest (c : Dev nD) : sProp 𝕄 := iprop((∃ r, prngReg c r) ∗ ∃ W, owes (c : Thread nD τ) (0 : CellTallies nD τ sig Unit) W)

/-- A region entered at the valuation `Vi` and left at `Vo`, which is `Vi` updated at the output windows' arrays. -/
def mkReg (p : Fin 4) (lf : Pipeline.LaunchFacts (nD := nD) (τ := τ) cfgs p) (Vi Vo : Dev nD → Valuation τ sig (Elt F)) (J : ℕ) (O : List (Fin (cfgs p).W))
    (hb : ∀ c, BodyObligation (pdats m p c) (defs₀ (F := F)) 𝒱₀ () Set.univ)
    (hq : ∀ c w, (pdats m p c).q w = fullShare) (ho : ∀ c t, (pdats m p c).owed t = 0)
    (hΦ : ∀ c t, (pdats m p c).Φ t = Pipeline.ΦA (cfgs p).spec c) (hrec : ∀ c t, (pdats m p c).recorded t = Set.univ)
    (hA : ∀ c w, (pdats m p c).A w = atTc Vi c (Pipeline.arrRef (cfgs p).spec w))
    (hX : ∀ c (r : Ref sig .tc), outs m J r c = Pipeline.withArrays (cfgs p).spec c (Vi c) (fun w => (pdats m p c).arrAt w (cfgs p).N) r)
    (hVo : ∀ c, Vo c = O.foldl (fun f w => Function.update f (Proc.devRef .tc (Pipeline.arrRef (cfgs p).spec w)) (outs m J (Pipeline.arrRef (cfgs p).spec w) c)) (Vi c))
    (hO : ∀ w, w ∉ O → ((cfgs p).win w).isOut = false) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ Rest c)
  post c := iprop(StableHlo.held (c : Thread nD τ) (Pipeline.ucRefs τ sig) (Vo c) ∗ Rest c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) lf.win lf.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have inj : Function.Injective fun w => (Proc.devRef .tc (Pipeline.arrRef (cfgs p).spec w) : DevRef τ sig) :=
      fun _ _ e => lf.win.arr_inj (Proc.devRef_injective _ e)
    have hF : ∀ w, (pdats m p c).arrAt w (cfgs p).N = Vo c (Proc.devRef .tc (Pipeline.arrRef (cfgs p).spec w)) := fun w => by
      rw [hVo]
      by_cases h : w ∈ O
      · rw [foldl_update_of_mem inj _ O _ w h, hX]; exact (withArrays_out lf.win.arr_inj c (Vi c) (pdats m p c) w).symm
      · rw [foldl_update_of_not_mem inj _ O _ h]; exact ((pdats m p c).arrAt_in w (hO w h) _).trans (hA c w)
    have hr : ∀ b : Ref sig .tc, b ∉ Finset.univ.image (Pipeline.arrRef (cfgs p).spec) → Vo c (Proc.devRef .tc b) = Vi c (Proc.devRef .tc b) := fun b hb => by
      rw [hVo]
      exact foldl_update_of_ne _ _ O _ _ fun i _ e => hb (Finset.mem_image.mpr ⟨i, Finset.mem_univ _, Proc.devRef_injective _ e⟩)
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vi c) (atTc Vo c) ((pdats m p c).arrAt · (cfgs p).N) hF hr
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

def reg0 := mkReg m 0 launch0 (V1 m) (V2 m (outs m)) 2 [5, 6, 7] (body_obligation0 _) (fun _ _ => rfl) (fun _ _ => rfl) (fun _ _ => rfl) (fun _ _ => rfl) (A_eq0 _) (fun _ _ => rfl) (fun _ => rfl) (by decide)
def reg1 := mkReg m 1 launch1 (V3 m (outs m)) (V4 m (outs m)) 4 [5, 6, 7] (body_obligation1 _) (fun _ _ => rfl) (fun _ _ => rfl) (fun _ _ => rfl) (fun _ _ => rfl) (A_eq1 _) (fun _ _ => rfl) (fun _ => rfl) (by decide)
def reg2 := mkReg m 2 launch2 (V28 m (outs m)) (V29 m (outs m)) 29 [4] (body_obligation2 _) (fun _ _ => rfl) (fun _ _ => rfl) (fun _ _ => rfl) (fun _ _ => rfl) (A_eq2 _) (fun _ _ => rfl) (fun _ => rfl) (by decide)
def reg3 := mkReg m 3 launch3 (V29 m (outs m)) (V30 m (outs m)) 30 [4] (body_obligation3 _) (fun _ _ => rfl) (fun _ _ => rfl) (fun _ _ => rfl) (fun _ _ => rfl) (A_eq3 _) (fun _ _ => rfl) (fun _ => rfl) (by decide)

theorem hu₀ : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj)))
        ∗ bigSep Finset.univ fun _ : Dev nD => (BI.emp : sProp 𝕄)) := by
  rw [ownU_emb₁, BI.bigSep_emp_const]
  iintro Hu; imodintro
  isplitl [Hu]; · iexact Hu
  iempintro

/-- The run over the four region records; at the end every buffer is read off the last valuation. -/
theorem run_out (ρ : Dev nD → PrngReg) : θ_run defs (onTc (τ := τ) (main (F := F))) ⟨m, fun _ => 0, ρ⟩ (fun r => ∀ c : Dev nD,
      r.2.mem ((c.tc : Thread nD τ).loc main_v110) = V31 m (outs m) c main_v110
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) adm (pdats m) () cellOf_inj (emb₁ : Emb (URounds (GSem nD τ sig) Unit) 𝕄) defs₀ 𝒱₀ L lv m ρ main
    (segs m (outs m) 𝒱₀ L lv (fun _ => Rest) () (pdats m) (reg0 m) (reg1 m) (reg2 m) (reg3 m))
    (fun c Q => by
      rewrite [main_chain c, Seg.run_eq_chain, show (segs m (outs m) 𝒱₀ L lv (fun _ => Rest) () (pdats m) (reg0 m) (reg1 m) (reg2 m) (reg3 m) c).map Seg.prog = [StableHlo.seq hostOps0, Prog.lift (.customCall (Pipeline.entry 0) ()), StableHlo.seq hostOps1, Prog.lift (.customCall (Pipeline.entry 1) ()), StableHlo.seq hostOps2, StableHlo.seq hostOps2_1, StableHlo.seq hostOps2_2, StableHlo.seq hostOps2_3, StableHlo.seq hostOps2_4, StableHlo.seq hostOps2_5, StableHlo.seq hostOps2_6, StableHlo.seq hostOps2_7, StableHlo.seq hostOps2_8, StableHlo.seq hostOps2_9, StableHlo.seq hostOps2_10, StableHlo.seq hostOps2_11, StableHlo.seq hostOps2_12, StableHlo.seq hostOps2_13, StableHlo.seq hostOps2_14, StableHlo.seq hostOps2_15, StableHlo.seq hostOps2_16, StableHlo.seq hostOps2_17, StableHlo.seq hostOps2_18, StableHlo.seq hostOps2_19, StableHlo.seq hostOps2_20, StableHlo.seq hostOps2_21, StableHlo.seq hostOps2_22, StableHlo.seq hostOps2_23, Prog.lift (.customCall (Pipeline.entry 2) ()), Prog.lift (.customCall (Pipeline.entry 3) ()), StableHlo.seq hostOps4] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄)) _ hu₀
    (T₀ := fun c => iprop(StableHlo.held (c : Thread nD τ) (Pipeline.ucRefs τ sig) (V0 m c) ∗ Rest c))
    (Tₙ := fun c => StableHlo.held (c : Thread nD τ) (Pipeline.ucRefs τ sig) (V31 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨-, H⟩; iexact H)⟩)
    (hinit := Pipeline.initEach L lv fun c => ?_)
    (QY := fun c s => ∀ b ∈ Pipeline.ucRefs τ sig, s.mem ((c : Thread nD τ).1, b) = V31 m (outs m) c b)
    (hfin := fun c s' => (pointsTo_read_all (Pipeline.ucRefs τ sig) (fun b => ((c : Thread nD τ).1, b)) (V31 m (outs m) c) s').trans fupd_intro)
    (hQ := fun s h c => ?_)
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · have g : ∀ r : Ref sig .tc, ¬ (Proc.devRef (τ := τ) .tc r).isScoped → s.mem ((c.tc : Thread nD τ).loc r) = V31 m (outs m) c r :=
      fun r hr => h c _ (Finset.mem_filter.mpr ⟨StableHlo.devRef_mem_tcRefs r, hr⟩)
    exact ⟨g main_v110 (by decide),
      (g main_arg0 (by decide)).trans (V31_main_arg0 m _ c),
      (g main_arg1 (by decide)).trans (V31_main_arg1 m _ c),
      (g main_arg2 (by decide)).trans (V31_main_arg2 m _ c),
      (g main_arg3 (by decide)).trans (V31_main_arg3 m _ c),
      (g main_arg4 (by decide)).trans (V31_main_arg4 m _ c),
      (g main_arg5 (by decide)).trans (V31_main_arg5 m _ c),
      (g main_arg6 (by decide)).trans (V31_main_arg6 m _ c),
      (g main_arg7 (by decide)).trans (V31_main_arg7 m _ c),
      (g main_arg8 (by decide)).trans (V31_main_arg8 m _ c),
      (g main_arg9 (by decide)).trans (V31_main_arg9 m _ c),
      (g main_arg10 (by decide)).trans (V31_main_arg10 m _ c),
      (g main_arg11 (by decide)).trans (V31_main_arg11 m _ c),
      (g main_arg12 (by decide)).trans (V31_main_arg12 m _ c),
      (g main_arg13 (by decide)).trans (V31_main_arg13 m _ c),
      (g main_arg14 (by decide)).trans (V31_main_arg14 m _ c),
      (g main_arg15 (by decide)).trans (V31_main_arg15 m _ c),
      (g main_arg16 (by decide)).trans (V31_main_arg16 m _ c),
      (g main_arg17 (by decide)).trans (V31_main_arg17 m _ c)⟩

/-- The frame is the same run with the result buffer's conjunct dropped. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2) (run_out m ρ)

end Cert.Kernel.Gen

end
-- ==== Proof.KIRegion0.lean ====
import proofs.«412146_j64725157151125_3_alg».proof.Proof.Gen.KernelIdeal.Launch
import proofs.«412146_j64725157151125_3_alg».proof.Proof.Gen.KernelIdeal.Skeleton
import proofs.«412146_j64725157151125_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

def out0_5 (x0 : Vec F S5000x128 .f32) (x1 : Vec F S128x128 .f32) (x4 : Vec F S1x128 .f32) : Vec F S5000x128 .f32 :=
  View.canon [⟨r0_0, k0_pay2 (View.ld x0 r0_0) (View.ld x1 r0_1) (View.ld x4 r0_2)⟩]

def out0_6 (x0 : Vec F S5000x128 .f32) (x2 : Vec F S128x128 .f32) : Vec F S5000x128 .f32 :=
  View.canon [⟨r0_0, k0_pay3 (View.ld x0 r0_0) (View.ld x2 r0_1)⟩]

def out0_7 (x0 : Vec F S5000x128 .f32) (x3 : Vec F S128x128 .f32) : Vec F S5000x128 .f32 :=
  View.canon [⟨r0_0, k0_pay4 (View.ld x0 r0_0) (View.ld x3 r0_1)⟩]

/-- The body reads its five inputs and overwrites each output buffer whole, so what it leaves there is a function of the inputs alone. -/
theorem sound_kernel0 (c : Dev nD) (E : Set ℕ) (i : grid0.Coords) {arg0 arg5 arg6 arg7 : Memref sig .tc .vmem S5000x128 .f32} {arg1 arg2 arg3 : Memref sig .tc .vmem S128x128 .f32} {arg4 : Memref sig .tc .vmem S1x128 .f32}
    (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole)
    {x0 : Vec F S5000x128 .f32} {x1 x2 x3 : Vec F S128x128 .f32} {x4 : Vec F S1x128 .f32} (K : PUnit → sProp 𝕄) :
    iprop(owns c.tc arg0 fullShare x0 ∗ owns c.tc arg1 fullShare x1 ∗ owns c.tc arg2 fullShare x2 ∗ owns c.tc arg3 fullShare x3 ∗ owns c.tc arg4 fullShare x4 ∗ (∃ d, owns c.tc arg5 fullShare d) ∗ (∃ d, owns c.tc arg6 fullShare d) ∗ (∃ d, owns c.tc arg7 fullShare d)
        ∗ (iprop(owns c.tc arg5 fullShare (out0_5 x0 x1 x4) ∗ owns c.tc arg6 fullShare (out0_6 x0 x2) ∗ owns c.tc arg7 fullShare (out0_7 x0 x3) ∗ owns c.tc arg0 fullShare x0 ∗ owns c.tc arg1 fullShare x1 ∗ owns c.tc arg2 fullShare x2 ∗ owns c.tc arg3 fullShare x3 ∗ owns c.tc arg4 fullShare x4) -∗ K ⟨⟩))
      ⊢ wp frame (wpE (defs₀ (F := F)) Variants.none c none) E (cc0__proj3_kernel i arg0 harg0 arg1 harg1 arg2 harg2 arg3 harg3 arg4 harg4 arg5 harg5 arg6 harg6 arg7 harg7) K := by
  simp only [cc0__proj3_kernel_eq_skeleton]; unfold cc0__proj3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec!
  sl_step
  iapply Hk
  isplitl [H5]
  · iexists _; isplitr
    swap; · iexact H5
    ipureintro; exact View.read_writes_junk_eq_canon _ _
  isplitl [H6]
  · iexists _; isplitr
    swap; · iexact H6
    ipureintro; exact View.read_writes_junk_eq_canon _ _
  isplitl [H7]
  · iexists _; isplitr
    swap; · iexact H7
    ipureintro; exact View.read_writes_junk_eq_canon _ _
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 4 t)
    | ⟨6, _⟩ => out0_6 (iblk0 V c 0 t) (iblk0 V c 2 t)
    | ⟨7, _⟩ => out0_7 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = out0_5 (iblk0 V c 0 t) (iblk0 V c 1 t) (iblk0 V c 4 t) := by dsimp only [dat0]
theorem after0_6 (c : Dev nD) (t : Fin cfg0.N) : (dat0 V c).after 6 t = out0_6 (iblk0 V c 0 t) (iblk0 V c 2 t) := by dsimp only [dat0]
theorem after0_7 (c : Dev nD) (t : Fin cfg0.N) : (dat0 V c).after 7 t = out0_7 (iblk0 V c 0 t) (iblk0 V c 3 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) := by
  refine ⟨?_, ?_, ?_, ?_, ?_⟩ <;> intro d <;>
    exact ((dat0 V c).before_in_eq_fetched _ rfl (fun _ => rfl) (fun _ _ _ => rfl) (fun _ => by unfold Dat.blockOf; rfl) t d).trans (by unfold Dat.fetched Dat.blockOf; rfl)

theorem body_obligation0 (c : Dev nD) : BodyObligation (dat0 (F := F) V c) (defs₀ (F := F)) Variants.none () Set.univ := fun t => by
  obtain ⟨ha, hb, hc, hd, he⟩ := before0 V c t
  rewrite [bigSep_W0, bigSep_W0]
  simp only [ha, hb, hc, hd, he, after0_5, after0_6, after0_7,
    show (dat0 V c).Φ t.succ = (dat0 V c).Φ t.castSucc from rfl, show (dat0 V c).owesAt () t.succ = (dat0 V c).owesAt () t.castSucc from rfl]
  change _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _)
  iframe H0 H1 H2 H3 H4
  isplitl [H5]; · iexists _; iexact H5
  isplitl [H6]; · iexists _; iexact H6
  isplitl [H7]; · iexists _; iexact H7
  iintro ⟨H5, H6, H7, H⟩
  iframe HΦ Ho H5 H6 H7
  iexact H

end Cert.KernelIdeal.Gen

end
-- ==== Proof.KIRegion1.lean ====
import proofs.«412146_j64725157151125_3_alg».proof.Proof.Gen.KernelIdeal.Launch
import proofs.«412146_j64725157151125_3_alg».proof.Proof.Gen.KernelIdeal.Skeleton
import proofs.«412146_j64725157151125_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

def out1_5 (x0 : Vec F S5000x128 .f32) (x1 : Vec F S128x128 .f32) (x4 : Vec F S1x128 .f32) : Vec F S5000x128 .f32 :=
  View.canon [⟨r1_0, k1_pay2 (View.ld x0 r1_0) (View.ld x1 r1_1) (View.ld x4 r1_2)⟩]

def out1_6 (x0 : Vec F S5000x128 .f32) (x2 : Vec F S128x128 .f32) : Vec F S5000x128 .f32 :=
  View.canon [⟨r1_0, k1_pay3 (View.ld x0 r1_0) (View.ld x2 r1_1)⟩]

def out1_7 (x0 : Vec F S5000x128 .f32) (x3 : Vec F S128x128 .f32) : Vec F S5000x128 .f32 :=
  View.canon [⟨r1_0, k1_pay4 (View.ld x0 r1_0) (View.ld x3 r1_1)⟩]

/-- The body reads its five inputs and overwrites each output buffer whole, so what it leaves there is a function of the inputs alone. -/
theorem sound_kernel1 (c : Dev nD) (E : Set ℕ) (i : grid1.Coords) {arg0 arg5 arg6 arg7 : Memref sig .tc .vmem S5000x128 .f32} {arg1 arg2 arg3 : Memref sig .tc .vmem S128x128 .f32} {arg4 : Memref sig .tc .vmem S1x128 .f32}
    (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole)
    {x0 : Vec F S5000x128 .f32} {x1 x2 x3 : Vec F S128x128 .f32} {x4 : Vec F S1x128 .f32} (K : PUnit → sProp 𝕄) :
    iprop(owns c.tc arg0 fullShare x0 ∗ owns c.tc arg1 fullShare x1 ∗ owns c.tc arg2 fullShare x2 ∗ owns c.tc arg3 fullShare x3 ∗ owns c.tc arg4 fullShare x4 ∗ (∃ d, owns c.tc arg5 fullShare d) ∗ (∃ d, owns c.tc arg6 fullShare d) ∗ (∃ d, owns c.tc arg7 fullShare d)
        ∗ (iprop(owns c.tc arg5 fullShare (out1_5 x0 x1 x4) ∗ owns c.tc arg6 fullShare (out1_6 x0 x2) ∗ owns c.tc arg7 fullShare (out1_7 x0 x3) ∗ owns c.tc arg0 fullShare x0 ∗ owns c.tc arg1 fullShare x1 ∗ owns c.tc arg2 fullShare x2 ∗ owns c.tc arg3 fullShare x3 ∗ owns c.tc arg4 fullShare x4) -∗ K ⟨⟩))
      ⊢ wp frame (wpE (defs₀ (F := F)) Variants.none c none) E (cc1__proj3_kernel i arg0 harg0 arg1 harg1 arg2 harg2 arg3 harg3 arg4 harg4 arg5 harg5 arg6 harg6 arg7 harg7) K := by
  simp only [cc1__proj3_kernel_eq_skeleton]; unfold cc1__proj3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec!
  sl_step
  iapply Hk
  isplitl [H5]
  · iexists _; isplitr
    swap; · iexact H5
    ipureintro; exact View.read_writes_junk_eq_canon _ _
  isplitl [H6]
  · iexists _; isplitr
    swap; · iexact H6
    ipureintro; exact View.read_writes_junk_eq_canon _ _
  isplitl [H7]
  · iexists _; isplitr
    swap; · iexact H7
    ipureintro; exact View.read_writes_junk_eq_canon _ _
  sl_close

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 4 t)
    | ⟨6, _⟩ => out1_6 (iblk1 V c 0 t) (iblk1 V c 2 t)
    | ⟨7, _⟩ => out1_7 (iblk1 V c 0 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t = out1_5 (iblk1 V c 0 t) (iblk1 V c 1 t) (iblk1 V c 4 t) := by dsimp only [dat1]
theorem after1_6 (c : Dev nD) (t : Fin cfg1.N) : (dat1 V c).after 6 t = out1_6 (iblk1 V c 0 t) (iblk1 V c 2 t) := by dsimp only [dat1]
theorem after1_7 (c : Dev nD) (t : Fin cfg1.N) : (dat1 V c).after 7 t = out1_7 (iblk1 V c 0 t) (iblk1 V c 3 t) := by dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) := by
  refine ⟨?_, ?_, ?_, ?_, ?_⟩ <;> intro d <;>
    exact ((dat1 V c).before_in_eq_fetched _ rfl (fun _ => rfl) (fun _ _ _ => rfl) (fun _ => by unfold Dat.blockOf; rfl) t d).trans (by unfold Dat.fetched Dat.blockOf; rfl)

theorem body_obligation1 (c : Dev nD) : BodyObligation (dat1 (F := F) V c) (defs₀ (F := F)) Variants.none () Set.univ := fun t => by
  obtain ⟨ha, hb, hc, hd, he⟩ := before1 V c t
  rewrite [bigSep_W1, bigSep_W1]
  simp only [ha, hb, hc, hd, he, after1_5, after1_6, after1_7,
    show (dat1 V c).Φ t.succ = (dat1 V c).Φ t.castSucc from rfl, show (dat1 V c).owesAt () t.succ = (dat1 V c).owesAt () t.castSucc from rfl]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _)
  iframe H0 H1 H2 H3 H4
  isplitl [H5]; · iexists _; iexact H5
  isplitl [H6]; · iexists _; iexact H6
  isplitl [H7]; · iexists _; iexact H7
  iintro ⟨H5, H6, H7, H⟩
  iframe HΦ Ho H5 H6 H7
  iexact H

end Cert.KernelIdeal.Gen

end
-- ==== Proof.KIRegion2.lean ====
import proofs.«412146_j64725157151125_3_alg».proof.Proof.Gen.KernelIdeal.Launch
import proofs.«412146_j64725157151125_3_alg».proof.Proof.Gen.KernelIdeal.Skeleton
import proofs.«412146_j64725157151125_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0

def out2_4 (xa : Vec F S5000x128 .f32) (xb : Vec F S5000x128 .f32) (xc : Vec F S5000x1 .f32) (xd : Vec F S5000x1 .f32) : Vec F S5000x128 .f32 :=
  View.canon [⟨r2_0, k2_pay1 (View.ld xc r2_1) (View.ld xd r2_1) (View.ld xa r2_0) (View.ld xb r2_0)⟩]

/-- The body reads its four inputs and overwrites the whole output with `out2_4` of what it read. -/
theorem sound_kernel2 (c : Dev nD) (E : Set ℕ) (i : grid2.Coords) {xa xb : Vec F S5000x128 .f32} {xc xd : Vec F S5000x1 .f32}
    {ma mb mo : Memref sig .tc .vmem S5000x128 .f32} {mc md : Memref sig .tc .vmem S5000x1 .f32}
    (hma : ma.IsWhole) (hmb : mb.IsWhole) (hmc : mc.IsWhole) (hmd : md.IsWhole) (hmo : mo.IsWhole) (K : PUnit → sProp 𝕄) :
    iprop(owns c ma fullShare xa ∗ owns c mb fullShare xb ∗ owns c mc fullShare xc ∗ owns c md fullShare xd ∗ (∃ d, owns c mo fullShare d)
        ∗ (owns c ma fullShare xa ∗ owns c mb fullShare xb ∗ owns c mc fullShare xc ∗ owns c md fullShare xd
            ∗ owns c mo fullShare (out2_4 xa xb xc xd) -∗ K ⟨⟩))
      ⊢ wp frame (wpE (defs₀ (F := F)) Variants.none c none) E (cc2__combine_kernel i ma hma mb hmb mc hmc md hmd mo hmo) K := by
  simp only [cc2__combine_kernel_eq_skeleton]; unfold cc2__combine_kernel_skel owns
  iintro ⟨⟨%fa, %hfa, Ha⟩, ⟨%fb, %hfb, Hb⟩, ⟨%fc, %hfc, Hc⟩, ⟨%fd, %hfd, Hd⟩, ⟨%dO, %fo, -, Ho⟩, Hk⟩
  subst hfa hfb hfc hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact Ho
  ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

/-- `before` of every input window is that window's block of `V`, at every point and over any `d`. -/
theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ ∀ d, (dat2 V c).before 3 t d = iblk2 V c 3 t := by
  refine ⟨?_, ?_, ?_, ?_⟩ <;> exact
    (dat2 V c).before_in_eq_fetched _ rfl (fun _ => rfl) (fun _ _ _ => rfl) (fun _ => by dsimp only [dat2]; rfl) t

/-- The body's triple at the blocks `before2` names; the rest of the obligation is framed. -/
theorem body_obligation2 (c : Dev nD) : BodyObligation (dat2 (F := F) V c) (defs₀ (F := F)) Variants.none () Set.univ := fun t => by
  show iprop(_ ∗ _ ∗ bigSep _ fun w => iprop(∃ d, owns _ _ _ ((dat2 V c).before w t d))) ⊢ wp _ _ _ (bodyAt2 t) fun _ =>
    iprop(_ ∗ _ ∗ bigSep _ fun w => owns _ _ _ ((dat2 V c).after w t))
  rw [bigSep_W2, bigSep_W2]
  simp only [before2 V c t]
  dsimp only [dat2]
  iintro ⟨HΦ, Hw, ⟨%da, Ha⟩, ⟨%db, Hb⟩, ⟨%dc, Hc⟩, ⟨%dd, Hd⟩, ⟨%dO, Ho⟩⟩
  iapply sound_kernel2
  iframe Ha Hb Hc Hd
  isplitl [Ho]; · iexists _; iexact Ho
  iintro H
  iframe
  iexact Hw

end Region

end Cert.KernelIdeal.Gen

end
-- ==== Proof.KIRegion3.lean ====
import proofs.«412146_j64725157151125_3_alg».proof.Proof.Gen.KernelIdeal.Launch
import proofs.«412146_j64725157151125_3_alg».proof.Proof.Gen.KernelIdeal.Skeleton
import proofs.«412146_j64725157151125_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S5000x1 := Rect.unit (s := S5000x1) ![0, 0] S5000x1.size inb_S5000x1_S5000x1_0_0

def out3_4 (xa : Vec F S5000x128 .f32) (xb : Vec F S5000x128 .f32) (xc : Vec F S5000x1 .f32) (xd : Vec F S5000x1 .f32) : Vec F S5000x128 .f32 :=
  View.canon [⟨r3_0, k3_pay1 (View.ld xc r3_1) (View.ld xd r3_1) (View.ld xa r3_0) (View.ld xb r3_0)⟩]

/-- The body reads its four inputs and overwrites the whole output with `out3_4` of what it read. -/
theorem sound_kernel3 (c : Dev nD) (E : Set ℕ) (i : grid3.Coords) {xa xb : Vec F S5000x128 .f32} {xc xd : Vec F S5000x1 .f32}
    {ma mb mo : Memref sig .tc .vmem S5000x128 .f32} {mc md : Memref sig .tc .vmem S5000x1 .f32}
    (hma : ma.IsWhole) (hmb : mb.IsWhole) (hmc : mc.IsWhole) (hmd : md.IsWhole) (hmo : mo.IsWhole) (K : PUnit → sProp 𝕄) :
    iprop(owns c ma fullShare xa ∗ owns c mb fullShare xb ∗ owns c mc fullShare xc ∗ owns c md fullShare xd ∗ (∃ d, owns c mo fullShare d)
        ∗ (owns c ma fullShare xa ∗ owns c mb fullShare xb ∗ owns c mc fullShare xc ∗ owns c md fullShare xd
            ∗ owns c mo fullShare (out3_4 xa xb xc xd) -∗ K ⟨⟩))
      ⊢ wp frame (wpE (defs₀ (F := F)) Variants.none c none) E (cc3__combine_kernel i ma hma mb hmb mc hmc md hmd mo hmo) K := by
  simp only [cc3__combine_kernel_eq_skeleton]; unfold cc3__combine_kernel_skel owns
  iintro ⟨⟨%fa, %hfa, Ha⟩, ⟨%fb, %hfb, Hb⟩, ⟨%fc, %hfc, Hc⟩, ⟨%fd, %hfd, Hd⟩, ⟨%dO, %fo, -, Ho⟩, Hk⟩
  subst hfa hfb hfc hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact Ho
  ipureintro
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) :
    (dat3 V c).after 4 t = out3_4 (iblk3 V c 0 t) (iblk3 V c 1 t) (iblk3 V c 2 t) (iblk3 V c 3 t) := by dsimp only [dat3]

/-- `before` of every input window is that window's block of `V`, at every point and over any `d`. -/
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ ∀ d, (dat3 V c).before 3 t d = iblk3 V c 3 t := by
  refine ⟨?_, ?_, ?_, ?_⟩ <;> exact
    (dat3 V c).before_in_eq_fetched _ rfl (fun _ => rfl) (fun _ _ _ => rfl) (fun _ => by dsimp only [dat3]; rfl) t

/-- The body's triple at the blocks `before3` names; the rest of the obligation is framed. -/
theorem body_obligation3 (c : Dev nD) : BodyObligation (dat3 (F := F) V c) (defs₀ (F := F)) Variants.none () Set.univ := fun t => by
  show iprop(_ ∗ _ ∗ bigSep _ fun w => iprop(∃ d, owns _ _ _ ((dat3 V c).before w t d))) ⊢ wp _ _ _ (bodyAt3 t) fun _ =>
    iprop(_ ∗ _ ∗ bigSep _ fun w => owns _ _ _ ((dat3 V c).after w t))
  rw [bigSep_W3, bigSep_W3]
  simp only [before3 V c t]
  dsimp only [dat3]
  iintro ⟨HΦ, Hw, ⟨%da, Ha⟩, ⟨%db, Hb⟩, ⟨%dc, Hc⟩, ⟨%dd, Hd⟩, ⟨%dO, Ho⟩⟩
  iapply sound_kernel3
  iframe Ha Hb Hc Hd
  isplitl [Ho]; · iexists _; iexact Ho
  iintro H
  iframe
  iexact Hw

end Region

end Cert.KernelIdeal.Gen

end
-- ==== Proof.KIFrame.lean ====
import proofs.«412146_j64725157151125_3_alg».proof.Proof.KIRegion0
import proofs.«412146_j64725157151125_3_alg».proof.Proof.KIRegion1
import proofs.«412146_j64725157151125_3_alg».proof.Proof.KIRegion2
import proofs.«412146_j64725157151125_3_alg».proof.Proof.KIRegion3
import proofs.«412146_j64725157151125_3_alg».proof.Proof.Gen.KernelIdeal.Regions
import Idealize.ShloMosaic.Lib.Pipeline.RegionsLoop
import Idealize.ShloMosaic.Lib.Pipeline.FrameSuffix

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

/-- A chain of updates at the keys `k i`, `i ∈ l`, by the values `g i` leaves every other key as it was, -/
theorem foldl_update_of_ne {ι κ : Type} [DecidableEq κ] {β : κ → Type} (k : ι → κ) (g : ∀ i, β (k i)) :
    ∀ (l : List ι) (f : ∀ a, β a) (a : κ), (∀ i ∈ l, k i ≠ a) → l.foldl (fun f i => Function.update f (k i) (g i)) f a = f a
  | [], _, _, _ => rfl
  | j :: l, _, a, h => (foldl_update_of_ne k g l _ a fun i hi => h i (.tail _ hi)).trans (Function.update_of_ne (h j (.head _)).symm _ _)

/-- in particular the key of an `i ∉ l`, `k` being injective, -/
theorem foldl_update_of_not_mem {ι κ : Type} [DecidableEq κ] {β : κ → Type} {k : ι → κ} (hk : Function.Injective k) (g : ∀ i, β (k i))
    (l : List ι) (f : ∀ a, β a) {i : ι} (hi : i ∉ l) : l.foldl (fun f i => Function.update f (k i) (g i)) f (k i) = f (k i) :=
  foldl_update_of_ne k g l f (k i) fun _ hj e => hi (hk e ▸ hj)

/-- and holds `g i` at the key of every `i ∈ l`. -/
theorem foldl_update_of_mem {ι κ : Type} [DecidableEq ι] [DecidableEq κ] {β : κ → Type} {k : ι → κ} (hk : Function.Injective k) (g : ∀ i, β (k i)) :
    ∀ (l : List ι) (f : ∀ a, β a) (i : ι), i ∈ l → l.foldl (fun f i => Function.update f (k i) (g i)) f (k i) = g i
  | [], _, _, h => nomatch h
  | j :: l, _, i, h =>
    if hi : i ∈ l then foldl_update_of_mem hk g l _ i hi
    else by
      cases (List.mem_cons.1 h).resolve_right hi
      exact (foldl_update_of_not_mem hk g l _ hi).trans (Function.update_self ..)

def X2 (c : Dev nD) : Valuation τ sig (Elt F) :=
  Pipeline.withArrays spec0 c (V1 m c) fun w => (dat0 (atTc (V1 m)) c).arrAt w cfg0.N

def outsA : Outs (F := F) := fun J r c => match J with
  | 2 => X2 m c r
  | _ => V0 m c r

def X4 (c : Dev nD) : Valuation τ sig (Elt F) :=
  Pipeline.withArrays spec1 c (V3 m (outsA m) c) fun w => (dat1 (atTc (V3 m (outsA m))) c).arrAt w cfg1.N

def outsB : Outs (F := F) := fun J r c => match J with
  | 2 => X2 m c r
  | 4 => X4 m c r
  | _ => V0 m c r

def X29 (c : Dev nD) : Valuation τ sig (Elt F) :=
  Pipeline.withArrays spec2 c (V28 m (outsB m) c) fun w => (dat2 (atTc (V28 m (outsB m))) c).arrAt w cfg2.N

def outsC : Outs (F := F) := fun J r c => match J with
  | 2 => X2 m c r
  | 4 => X4 m c r
  | 29 => X29 m c r
  | _ => V0 m c r

def X30 (c : Dev nD) : Valuation τ sig (Elt F) :=
  Pipeline.withArrays spec3 c (V29 m (outsC m) c) fun w => (dat3 (atTc (V29 m (outsC m))) c).arrAt w cfg3.N

def outs : Outs (F := F) := fun J r c => match J with
  | 2 => X2 m c r
  | 4 => X4 m c r
  | 29 => X29 m c r
  | 30 => X30 m c r
  | _ => V0 m c r

/-- What a region leaves at its window `w`'s array is the proof data's final array. -/
theorem withArrays_out {cfg : Cfg sig Λ₀} (hinj : Function.Injective (Pipeline.arrRef cfg.spec)) (c : Dev nD) (V : Valuation τ sig (Elt F))
    (d : Dat τ (Elt F) Unit ℕ (UR sig nD τ) ℕ cfg c) (w : Fin cfg.W) :
    Pipeline.withArrays cfg.spec c V (fun w => d.arrAt w cfg.N) (Proc.devRef .tc (Pipeline.arrRef cfg.spec w)) = d.arrAt w cfg.N :=
  Pipeline.withArrays_arr cfg.spec hinj c V _ w

theorem outs_2_v4_0 (c : Dev nD) : outs m 2 main_v4_0 c = (dat0 (atTc (V1 m)) c).arrAt 5 cfg0.N := withArrays_out launch0.win.arr_inj c (V1 m c) _ 5

theorem outs_2_v4_1 (c : Dev nD) : outs m 2 main_v4_1 c = (dat0 (atTc (V1 m)) c).arrAt 6 cfg0.N := withArrays_out launch0.win.arr_inj c (V1 m c) _ 6

theorem outs_2_v4_2 (c : Dev nD) : outs m 2 main_v4_2 c = (dat0 (atTc (V1 m)) c).arrAt 7 cfg0.N := withArrays_out launch0.win.arr_inj c (V1 m c) _ 7

theorem outs_4_v9_0 (c : Dev nD) : outs m 4 main_v9_0 c = (dat1 (atTc (V3 m (outs m))) c).arrAt 5 cfg1.N := withArrays_out launch1.win.arr_inj c (V3 m (outs m) c) _ 5

theorem outs_4_v9_1 (c : Dev nD) : outs m 4 main_v9_1 c = (dat1 (atTc (V3 m (outs m))) c).arrAt 6 cfg1.N := withArrays_out launch1.win.arr_inj c (V3 m (outs m) c) _ 6

theorem outs_4_v9_2 (c : Dev nD) : outs m 4 main_v9_2 c = (dat1 (atTc (V3 m (outs m))) c).arrAt 7 cfg1.N := withArrays_out launch1.win.arr_inj c (V3 m (outs m) c) _ 7

theorem outs_29_v106 (c : Dev nD) : outs m 29 main_v106 c = (dat2 (atTc (V28 m (outs m))) c).arrAt 4 cfg2.N := withArrays_out launch2.win.arr_inj c (V28 m (outs m) c) _ 4

theorem outs_30_v107 (c : Dev nD) : outs m 30 main_v107 c = (dat3 (atTc (V29 m (outs m))) c).arrAt 4 cfg3.N := withArrays_out launch3.win.arr_inj c (V29 m (outs m) c) _ 4

def pdats : (p : Fin 4) → (c : Dev nD) → Dat τ (Elt F) Unit ℕ (UR sig nD τ) ℕ (cfgs p) c
  | ⟨0, _⟩ => fun c => dat0 (atTc (V1 m)) c
  | ⟨1, _⟩ => fun c => dat1 (atTc (V3 m (outs m))) c
  | ⟨2, _⟩ => fun c => dat2 (atTc (V28 m (outs m))) c
  | ⟨3, _⟩ => fun c => dat3 (atTc (V29 m (outs m))) c

abbrev 𝒱₀ : Variants := Variants.none

abbrev L : GSem nD τ sig → Finset Unit := fun _ => ∅

abbrev lv : GSem nD τ sig → Unit → ℕ := fun _ _ => 0

abbrev Rest (c : Dev nD) : sProp 𝕄 := iprop((∃ r, prngReg c r) ∗ ∃ W, owes (c : Thread nD τ) (0 : CellTallies nD τ sig Unit) W)

/-- A region entered at the valuation `Vi` and left at `Vo`, which is `Vi` updated at the output windows' arrays. -/
def mkReg (p : Fin 4) (lf : Pipeline.LaunchFacts (nD := nD) (τ := τ) cfgs p) (Vi Vo : Dev nD → Valuation τ sig (Elt F)) (J : ℕ) (O : List (Fin (cfgs p).W))
    (hb : ∀ c, BodyObligation (pdats m p c) (defs₀ (F := F)) 𝒱₀ () Set.univ)
    (hq : ∀ c w, (pdats m p c).q w = fullShare) (ho : ∀ c t, (pdats m p c).owed t = 0)
    (hΦ : ∀ c t, (pdats m p c).Φ t = Pipeline.ΦA (cfgs p).spec c) (hrec : ∀ c t, (pdats m p c).recorded t = Set.univ)
    (hA : ∀ c w, (pdats m p c).A w = atTc Vi c (Pipeline.arrRef (cfgs p).spec w))
    (hX : ∀ c (r : Ref sig .tc), outs m J r c = Pipeline.withArrays (cfgs p).spec c (Vi c) (fun w => (pdats m p c).arrAt w (cfgs p).N) r)
    (hVo : ∀ c, Vo c = O.foldl (fun f w => Function.update f (Proc.devRef .tc (Pipeline.arrRef (cfgs p).spec w)) (outs m J (Pipeline.arrRef (cfgs p).spec w) c)) (Vi c))
    (hO : ∀ w, w ∉ O → ((cfgs p).win w).isOut = false) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ Rest c)
  post c := iprop(StableHlo.held (c : Thread nD τ) (Pipeline.ucRefs τ sig) (Vo c) ∗ Rest c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) lf.win lf.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have inj : Function.Injective fun w => (Proc.devRef .tc (Pipeline.arrRef (cfgs p).spec w) : DevRef τ sig) :=
      fun _ _ e => lf.win.arr_inj (Proc.devRef_injective _ e)
    have hF : ∀ w, (pdats m p c).arrAt w (cfgs p).N = Vo c (Proc.devRef .tc (Pipeline.arrRef (cfgs p).spec w)) := fun w => by
      rw [hVo]
      by_cases h : w ∈ O
      · rw [foldl_update_of_mem inj _ O _ w h, hX]; exact (withArrays_out lf.win.arr_inj c (Vi c) (pdats m p c) w).symm
      · rw [foldl_update_of_not_mem inj _ O _ h]; exact ((pdats m p c).arrAt_in w (hO w h) _).trans (hA c w)
    have hr : ∀ b : Ref sig .tc, b ∉ Finset.univ.image (Pipeline.arrRef (cfgs p).spec) → Vo c (Proc.devRef .tc b) = Vi c (Proc.devRef .tc b) := fun b hb => by
      rw [hVo]
      exact foldl_update_of_ne _ _ O _ _ fun i _ e => hb (Finset.mem_image.mpr ⟨i, Finset.mem_univ _, Proc.devRef_injective _ e⟩)
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vi c) (atTc Vo c) ((pdats m p c).arrAt · (cfgs p).N) hF hr
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

def reg0 := mkReg m 0 launch0 (V1 m) (V2 m (outs m)) 2 [5, 6, 7] (body_obligation0 _) (fun _ _ => rfl) (fun _ _ => rfl) (fun _ _ => rfl) (fun _ _ => rfl) (A_eq0 _) (fun _ _ => rfl) (fun _ => rfl) (by decide)
def reg1 := mkReg m 1 launch1 (V3 m (outs m)) (V4 m (outs m)) 4 [5, 6, 7] (body_obligation1 _) (fun _ _ => rfl) (fun _ _ => rfl) (fun _ _ => rfl) (fun _ _ => rfl) (A_eq1 _) (fun _ _ => rfl) (fun _ => rfl) (by decide)
def reg2 := mkReg m 2 launch2 (V28 m (outs m)) (V29 m (outs m)) 29 [4] (body_obligation2 _) (fun _ _ => rfl) (fun _ _ => rfl) (fun _ _ => rfl) (fun _ _ => rfl) (A_eq2 _) (fun _ _ => rfl) (fun _ => rfl) (by decide)
def reg3 := mkReg m 3 launch3 (V29 m (outs m)) (V30 m (outs m)) 30 [4] (body_obligation3 _) (fun _ _ => rfl) (fun _ _ => rfl) (fun _ _ => rfl) (fun _ _ => rfl) (A_eq3 _) (fun _ _ => rfl) (fun _ => rfl) (by decide)

theorem hu₀ : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj)))
        ∗ bigSep Finset.univ fun _ : Dev nD => (BI.emp : sProp 𝕄)) := by
  rw [ownU_emb₁, BI.bigSep_emp_const]
  iintro Hu; imodintro
  isplitl [Hu]; · iexact Hu
  iempintro

/-- The run over the four region records; at the end every buffer is read off the last valuation. -/
theorem run_out (ρ : Dev nD → PrngReg) : θ_run defs (onTc (τ := τ) (main (F := F))) ⟨m, fun _ => 0, ρ⟩ (fun r => ∀ c : Dev nD,
      r.2.mem ((c.tc : Thread nD τ).loc main_v110) = V31 m (outs m) c main_v110
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) adm (pdats m) () cellOf_inj (emb₁ : Emb (URounds (GSem nD τ sig) Unit) 𝕄) defs₀ 𝒱₀ L lv m ρ main
    (segs m (outs m) 𝒱₀ L lv (fun _ => Rest) () (pdats m) (reg0 m) (reg1 m) (reg2 m) (reg3 m))
    (fun c Q => by
      rewrite [main_chain c, Seg.run_eq_chain, show (segs m (outs m) 𝒱₀ L lv (fun _ => Rest) () (pdats m) (reg0 m) (reg1 m) (reg2 m) (reg3 m) c).map Seg.prog = [StableHlo.seq hostOps0, Prog.lift (.customCall (Pipeline.entry 0) ()), StableHlo.seq hostOps1, Prog.lift (.customCall (Pipeline.entry 1) ()), StableHlo.seq hostOps2, StableHlo.seq hostOps2_1, StableHlo.seq hostOps2_2, StableHlo.seq hostOps2_3, StableHlo.seq hostOps2_4, StableHlo.seq hostOps2_5, StableHlo.seq hostOps2_6, StableHlo.seq hostOps2_7, StableHlo.seq hostOps2_8, StableHlo.seq hostOps2_9, StableHlo.seq hostOps2_10, StableHlo.seq hostOps2_11, StableHlo.seq hostOps2_12, StableHlo.seq hostOps2_13, StableHlo.seq hostOps2_14, StableHlo.seq hostOps2_15, StableHlo.seq hostOps2_16, StableHlo.seq hostOps2_17, StableHlo.seq hostOps2_18, StableHlo.seq hostOps2_19, StableHlo.seq hostOps2_20, StableHlo.seq hostOps2_21, StableHlo.seq hostOps2_22, StableHlo.seq hostOps2_23, Prog.lift (.customCall (Pipeline.entry 2) ()), Prog.lift (.customCall (Pipeline.entry 3) ()), StableHlo.seq hostOps4] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄)) _ hu₀
    (T₀ := fun c => iprop(StableHlo.held (c : Thread nD τ) (Pipeline.ucRefs τ sig) (V0 m c) ∗ Rest c))
    (Tₙ := fun c => StableHlo.held (c : Thread nD τ) (Pipeline.ucRefs τ sig) (V31 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨-, H⟩; iexact H)⟩)
    (hinit := Pipeline.initEach L lv fun c => ?_)
    (QY := fun c s => ∀ b ∈ Pipeline.ucRefs τ sig, s.mem ((c : Thread nD τ).1, b) = V31 m (outs m) c b)
    (hfin := fun c s' => (pointsTo_read_all (Pipeline.ucRefs τ sig) (fun b => ((c : Thread nD τ).1, b)) (V31 m (outs m) c) s').trans fupd_intro)
    (hQ := fun s h c => ?_)
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · have g : ∀ r : Ref sig .tc, ¬ (Proc.devRef (τ := τ) .tc r).isScoped → s.mem ((c.tc : Thread nD τ).loc r) = V31 m (outs m) c r :=
      fun r hr => h c _ (Finset.mem_filter.mpr ⟨StableHlo.devRef_mem_tcRefs r, hr⟩)
    exact ⟨g main_v110 (by decide),
      (g main_arg0 (by decide)).trans (V31_main_arg0 m _ c),
      (g main_arg1 (by decide)).trans (V31_main_arg1 m _ c),
      (g main_arg2 (by decide)).trans (V31_main_arg2 m _ c),
      (g main_arg3 (by decide)).trans (V31_main_arg3 m _ c),
      (g main_arg4 (by decide)).trans (V31_main_arg4 m _ c),
      (g main_arg5 (by decide)).trans (V31_main_arg5 m _ c),
      (g main_arg6 (by decide)).trans (V31_main_arg6 m _ c),
      (g main_arg7 (by decide)).trans (V31_main_arg7 m _ c),
      (g main_arg8 (by decide)).trans (V31_main_arg8 m _ c),
      (g main_arg9 (by decide)).trans (V31_main_arg9 m _ c),
      (g main_arg10 (by decide)).trans (V31_main_arg10 m _ c),
      (g main_arg11 (by decide)).trans (V31_main_arg11 m _ c),
      (g main_arg12 (by decide)).trans (V31_main_arg12 m _ c),
      (g main_arg13 (by decide)).trans (V31_main_arg13 m _ c),
      (g main_arg14 (by decide)).trans (V31_main_arg14 m _ c),
      (g main_arg15 (by decide)).trans (V31_main_arg15 m _ c),
      (g main_arg16 (by decide)).trans (V31_main_arg16 m _ c),
      (g main_arg17 (by decide)).trans (V31_main_arg17 m _ c)⟩

/-- The frame is the same run with the result buffer's conjunct dropped. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2) (run_out m ρ)

end Cert.KernelIdeal.Gen

end
-- ==== Proof.KISpec.lean ====
import proofs.«412146_j64725157151125_3_alg».proof.Proof.Gen.KernelIdeal

noncomputable section

namespace Cert.KernelIdeal.Spec

open Cert.KernelIdeal Cert.KernelIdeal.Facts₀ Cert.KernelIdeal.Facts Idealize.ShloMosaic Idealize.ShloMosaic.TcCoe

variable {F : FTy → Type} [FloatOps F]

def take (x : (⟨S50000x128, .f32⟩ : BufTy).Contents (Elt F)) (idx : (⟨S640000, .i32⟩ : BufTy).Contents (Elt F)) :
    (⟨S640000x128, .f32⟩ : BufTy).Contents (Elt F) :=
  Host.gather gather_S50000x128_S640000x1_S640000x128_1_0_n_n_0_1_1128 x (broadcastInDim S640000x1 ![0] bcast_S640000_S640000x1_0 idx)

def norm (x : (⟨S640000x128, .f32⟩ : BufTy).Contents (Elt F)) : (⟨S640000, .f32⟩ : BufTy).Contents (Elt F) :=
  Host.sqrt (Host.reduceAdd (mulf x x) (constant S_ .f32 0x00000000#32) reducesTo_S640000x128_S640000_d1 h_S_)

def att (hre hte : (⟨S640000x128, .f32⟩ : BufTy).Contents (Elt F)) : (⟨S640000x1, .f32⟩ : BufTy).Contents (Elt F) :=
  broadcastInDim S640000x1 ![0] bcast_S640000_S640000x1_0
    (Host.divf (Host.reduceAdd (mulf hre hte) (constant S_ .f32 0x00000000#32) reducesTo_S640000x128_S640000_d1 h_S_)
      (maximumf (mulf (norm hre) (norm hte)) (broadcastInDim S640000 ![] bcast_S_S640000 (constant S_ .f32 0x322BCC77#32))))

def payload (hre : (⟨S640000x128, .f32⟩ : BufTy).Contents (Elt F)) (a : (⟨S640000x1, .f32⟩ : BufTy).Contents (Elt F)) :
    (⟨S640000x130, .f32⟩ : BufTy).Contents (Elt F) :=
  concatenate S640000x130 1 [⟨S640000x128, mulf (broadcastInDim S640000x128 ![0, 1] bcast_S640000x1_S640000x128_0_1 a) hre⟩,
    ⟨S640000x1, a⟩, ⟨S640000x1, broadcastInDim S640000x1 ![] bcast_S_S640000x1 (constant S_ .f32 0x3F800000#32)⟩]
    concatenates_S640000x128_S640000x1_S640000x1_S640000x130_d1

def seg (p : (⟨S640000x130, .f32⟩ : BufTy).Contents (Elt F)) (dst : (⟨S640000, .i32⟩ : BufTy).Contents (Elt F)) :
    (⟨S50000x130, .f32⟩ : BufTy).Contents (Elt F) :=
  Host.scatterAdd scatter_S50000x130_S640000x1_S640000x130_1_0_0_1
    (broadcastInDim S50000x130 ![] bcast_S_S50000x130 (constant S_ .f32 0x00000000#32))
    (broadcastInDim S640000x1 ![0] bcast_S640000_S640000x1_0 dst) p

-- one edge type's 130-column aggregate: the weighted source rows, the weights and ones, summed per destination node
def agg (hr ht : (⟨S50000x128, .f32⟩ : BufTy).Contents (Elt F)) (src dst : (⟨S640000, .i32⟩ : BufTy).Contents (Elt F)) :
    (⟨S50000x130, .f32⟩ : BufTy).Contents (Elt F) :=
  seg (payload (take hr src) (att (take hr src) (take ht dst))) dst

def hsum (s : (⟨S50000x130, .f32⟩ : BufTy).Contents (Elt F)) : (⟨S50000x128, .f32⟩ : BufTy).Contents (Elt F) :=
  extractStridedSlice S50000x128 ![0, 0] s slices_S50000x130_S50000x128_0_0

def mean (s : (⟨S50000x130, .f32⟩ : BufTy).Contents (Elt F)) : (⟨S50000x1, .f32⟩ : BufTy).Contents (Elt F) :=
  Host.divf (extractStridedSlice S50000x1 ![0, 128] s slices_S50000x130_S50000x1_0_128)
    (maximumf (extractStridedSlice S50000x1 ![0, 129] s slices_S50000x130_S50000x1_0_129)
      (broadcastInDim S50000x1 ![] bcast_S_S50000x1 (constant S_ .f32 0x3F800000#32)))

def stack (a b : (⟨S50000x128, .f32⟩ : BufTy).Contents (Elt F)) : (⟨S2x50000x128, .f32⟩ : BufTy).Contents (Elt F) :=
  concatenate S2x50000x128 0 [⟨S1x50000x128, broadcastInDim S1x50000x128 ![1, 2] bcast_S50000x128_S1x50000x128_1_2 a⟩,
    ⟨S1x50000x128, broadcastInDim S1x50000x128 ![1, 2] bcast_S50000x128_S1x50000x128_1_2 b⟩]
    concatenates_S1x50000x128_S1x50000x128_S2x50000x128_d0

end Cert.KernelIdeal.Spec

end
-- ==== Proof.KIChain.lean ====
import proofs.«412146_j64725157151125_3_alg».proof.Proof.KISpec
import Idealize.ShloMosaic.Lib.StableHlo.Run
import proofs.«412146_j64725157151125_3_alg».proof.Proof.Gen.KernelIdeal.Regions

noncomputable section

namespace Cert.KernelIdeal.Gen

open Cert.KernelIdeal Cert.KernelIdeal.Facts₀ Cert.KernelIdeal.Facts Idealize.ShloMosaic Idealize.ShloMosaic.TcCoe
open Idealize.ShloMosaic.StableHlo (after after_cons after_nil)

variable {F : FTy → Type} [FloatOps F]
variable (m : (ℓ : Loc nD τ sig) → Buf (Elt F) ℓ) (outs : Outs (F := F))

/-- Reads `V<n> m outs c r` back through every stretch that does not write `r`. -/
macro "walk_back " r:term:max : tactic =>
  `(tactic| repeat (first
      | rw [V31_of _ _ _ $r (by decide)] | rw [V30_of _ _ _ $r (by decide)] | rw [V29_of _ _ _ $r (by decide)]
      | rw [V28_of _ _ _ $r (by decide)] | rw [V27_of _ _ _ $r (by decide)] | rw [V26_of _ _ _ $r (by decide)]
      | rw [V25_of _ _ _ $r (by decide)] | rw [V24_of _ _ _ $r (by decide)] | rw [V23_of _ _ _ $r (by decide)]
      | rw [V22_of _ _ _ $r (by decide)] | rw [V21_of _ _ _ $r (by decide)] | rw [V20_of _ _ _ $r (by decide)]
      | rw [V19_of _ _ _ $r (by decide)] | rw [V18_of _ _ _ $r (by decide)] | rw [V17_of _ _ _ $r (by decide)]
      | rw [V16_of _ _ _ $r (by decide)] | rw [V15_of _ _ _ $r (by decide)] | rw [V14_of _ _ _ $r (by decide)]
      | rw [V13_of _ _ _ $r (by decide)] | rw [V12_of _ _ _ $r (by decide)] | rw [V11_of _ _ _ $r (by decide)]
      | rw [V10_of _ _ _ $r (by decide)] | rw [V9_of _ _ _ $r (by decide)] | rw [V8_of _ _ _ $r (by decide)]
      | rw [V7_of _ _ _ $r (by decide)] | rw [V6_of _ _ _ $r (by decide)] | rw [V5_of _ _ _ $r (by decide)]
      | rw [V4_of _ _ _ $r (by decide)] | rw [V3_of _ _ _ $r (by decide)] | rw [V2_of _ _ _ $r (by decide)]
      | rw [V1_of _ _ $r (by decide)]))

theorem V1_main_v0 (c : Dev nD) :
    (V1 m c main_v0 : (⟨S128x128, .f32⟩ : BufTy).Contents (Elt F)) = transpose S128x128 [1, 0] (m (c, main_arg16)) transposes_S128x128_S128x128_1_0 := by
  dsimp only [V1, hostOps0]
  after_results <;> rfl
theorem V1_main_v1 (c : Dev nD) :
    (V1 m c main_v1 : (⟨S128x128, .f32⟩ : BufTy).Contents (Elt F)) = transpose S128x128 [1, 0] (m (c, main_arg10)) transposes_S128x128_S128x128_1_0 := by
  dsimp only [V1, hostOps0]
  after_results <;> rfl
theorem V1_main_v2 (c : Dev nD) :
    (V1 m c main_v2 : (⟨S128x128, .f32⟩ : BufTy).Contents (Elt F)) = transpose S128x128 [1, 0] (m (c, main_arg11)) transposes_S128x128_S128x128_1_0 := by
  dsimp only [V1, hostOps0]
  after_results <;> rfl
theorem V1_main_v3 (c : Dev nD) :
    (V1 m c main_v3 : (⟨S1x128, .f32⟩ : BufTy).Contents (Elt F)) = shapeCast S1x128 (m (c, main_arg17)) shapeCasts_S128_S1x128 := by
  dsimp only [V1, hostOps0]
  after_results <;> rfl
theorem V1_main_arg1 (c : Dev nD) : V1 m c main_arg1 = m (c, main_arg1) := V1_of m c main_arg1 (by decide)

theorem V3_main_v5 (c : Dev nD) :
    (V3 m outs c main_v5 : (⟨S128x128, .f32⟩ : BufTy).Contents (Elt F)) = transpose S128x128 [1, 0] (m (c, main_arg14)) transposes_S128x128_S128x128_1_0 := by
  dsimp only [V3, hostOps1]
  after_results <;> rfl
theorem V3_main_v6 (c : Dev nD) :
    (V3 m outs c main_v6 : (⟨S128x128, .f32⟩ : BufTy).Contents (Elt F)) = transpose S128x128 [1, 0] (m (c, main_arg12)) transposes_S128x128_S128x128_1_0 := by
  dsimp only [V3, hostOps1]
  after_results <;> rfl
theorem V3_main_v7 (c : Dev nD) :
    (V3 m outs c main_v7 : (⟨S128x128, .f32⟩ : BufTy).Contents (Elt F)) = transpose S128x128 [1, 0] (m (c, main_arg13)) transposes_S128x128_S128x128_1_0 := by
  dsimp only [V3, hostOps1]
  after_results <;> rfl
theorem V3_main_v8 (c : Dev nD) :
    (V3 m outs c main_v8 : (⟨S1x128, .f32⟩ : BufTy).Contents (Elt F)) = shapeCast S1x128 (m (c, main_arg15)) shapeCasts_S128_S1x128 := by
  dsimp only [V3, hostOps1]
  after_results <;> rfl
theorem V3_main_arg0 (c : Dev nD) : V3 m outs c main_arg0 = m (c, main_arg0) := by
  walk_back main_arg0

variable (W : Valuation τ sig (Elt F))

/-- One edge type's six host stretches, from any valuation `W`: the aggregate of `W`'s inputs, its sum columns, its mean column. -/
theorem pipe_1 (X : Valuation τ sig (Elt F)) (hX : X = after hostOps2_5 (after hostOps2_4 (after hostOps2_3 (after hostOps2_2 (after hostOps2_1 (after hostOps2 W)))))) :
    X main_v27 = Spec.agg (W main_v4_1) (W main_v9_0) (W main_arg2) (W main_arg3)
      ∧ X main_v28 = Spec.hsum (X main_v27) ∧ X main_v33 = Spec.mean (X main_v27) := by
  subst hX
  dsimp only [hostOps2, hostOps2_1, hostOps2_2, hostOps2_3, hostOps2_4, hostOps2_5]
  after_results_simp
  exact ⟨rfl, rfl, rfl⟩

/-- `pipe_1` where the program reaches it: its inputs are two earlier outputs and two arguments. -/
theorem agg_1 (c : Dev nD) :
    V10 m outs c main_v27 = Spec.agg (outs 2 main_v4_1 c) (outs 4 main_v9_0 c) (m (c, main_arg2)) (m (c, main_arg3)) := by
  rw [(pipe_1 (V4 m outs c) (V10 m outs c) rfl).1]
  walk_back main_v4_1
  walk_back main_v9_0
  walk_back main_arg2
  walk_back main_arg3
  simp (disch := exact StableHlo.devRef_ne_of_ne (by decide)) only [V2, V4, Function.update_self, Function.update_of_ne]

theorem V28_main_v28 (c : Dev nD) :
    (V28 m outs c main_v28 : (⟨S50000x128, .f32⟩ : BufTy).Contents (Elt F))
      = Spec.hsum (Spec.agg (outs 2 main_v4_1 c) (outs 4 main_v9_0 c) (m (c, main_arg2)) (m (c, main_arg3))) := by
  walk_back main_v28
  exact (pipe_1 (V4 m outs c) _ rfl).2.1.trans (congrArg Spec.hsum (agg_1 m outs c))

theorem V28_main_v33 (c : Dev nD) :
    (V28 m outs c main_v33 : (⟨S50000x1, .f32⟩ : BufTy).Contents (Elt F))
      = Spec.mean (Spec.agg (outs 2 main_v4_1 c) (outs 4 main_v9_0 c) (m (c, main_arg2)) (m (c, main_arg3))) := by
  walk_back main_v33
  exact (pipe_1 (V4 m outs c) _ rfl).2.2.trans (congrArg Spec.mean (agg_1 m outs c))

theorem pipe_2 (X : Valuation τ sig (Elt F)) (hX : X = after hostOps2_11 (after hostOps2_10 (after hostOps2_9 (after hostOps2_8 (after hostOps2_7 (after hostOps2_6 W)))))) :
    X main_v51 = Spec.agg (W main_v4_2) (W main_v9_0) (W main_arg4) (W main_arg5)
      ∧ X main_v52 = Spec.hsum (X main_v51) ∧ X main_v57 = Spec.mean (X main_v51) := by
  subst hX
  dsimp only [hostOps2_6, hostOps2_7, hostOps2_8, hostOps2_9, hostOps2_10, hostOps2_11]
  after_results_simp
  exact ⟨rfl, rfl, rfl⟩

theorem agg_2 (c : Dev nD) :
    V16 m outs c main_v51 = Spec.agg (outs 2 main_v4_2 c) (outs 4 main_v9_0 c) (m (c, main_arg4)) (m (c, main_arg5)) := by
  rw [(pipe_2 (V10 m outs c) (V16 m outs c) rfl).1]
  walk_back main_v4_2
  walk_back main_v9_0
  walk_back main_arg4
  walk_back main_arg5
  simp (disch := exact StableHlo.devRef_ne_of_ne (by decide)) only [V2, V4, Function.update_self, Function.update_of_ne]

theorem V28_main_v52 (c : Dev nD) :
    (V28 m outs c main_v52 : (⟨S50000x128, .f32⟩ : BufTy).Contents (Elt F))
      = Spec.hsum (Spec.agg (outs 2 main_v4_2 c) (outs 4 main_v9_0 c) (m (c, main_arg4)) (m (c, main_arg5))) := by
  walk_back main_v52
  exact (pipe_2 (V10 m outs c) _ rfl).2.1.trans (congrArg Spec.hsum (agg_2 m outs c))

theorem V28_main_v57 (c : Dev nD) :
    (V28 m outs c main_v57 : (⟨S50000x1, .f32⟩ : BufTy).Contents (Elt F))
      = Spec.mean (Spec.agg (outs 2 main_v4_2 c) (outs 4 main_v9_0 c) (m (c, main_arg4)) (m (c, main_arg5))) := by
  walk_back main_v57
  exact (pipe_2 (V10 m outs c) _ rfl).2.2.trans (congrArg Spec.mean (agg_2 m outs c))

theorem pipe_3 (X : Valuation τ sig (Elt F)) (hX : X = after hostOps2_17 (after hostOps2_16 (after hostOps2_15 (after hostOps2_14 (after hostOps2_13 (after hostOps2_12 W)))))) :
    X main_v75 = Spec.agg (W main_v9_1) (W main_v4_0) (W main_arg6) (W main_arg7)
      ∧ X main_v76 = Spec.hsum (X main_v75) ∧ X main_v81 = Spec.mean (X main_v75) := by
  subst hX
  dsimp only [hostOps2_12, hostOps2_13, hostOps2_14, hostOps2_15, hostOps2_16, hostOps2_17]
  after_results_simp
  exact ⟨rfl, rfl, rfl⟩

theorem agg_3 (c : Dev nD) :
    V22 m outs c main_v75 = Spec.agg (outs 4 main_v9_1 c) (outs 2 main_v4_0 c) (m (c, main_arg6)) (m (c, main_arg7)) := by
  rw [(pipe_3 (V16 m outs c) (V22 m outs c) rfl).1]
  walk_back main_v9_1
  walk_back main_v4_0
  walk_back main_arg6
  walk_back main_arg7
  simp (disch := exact StableHlo.devRef_ne_of_ne (by decide)) only [V2, V4, Function.update_self, Function.update_of_ne]

theorem V29_main_v76 (c : Dev nD) :
    (V29 m outs c main_v76 : (⟨S50000x128, .f32⟩ : BufTy).Contents (Elt F))
      = Spec.hsum (Spec.agg (outs 4 main_v9_1 c) (outs 2 main_v4_0 c) (m (c, main_arg6)) (m (c, main_arg7))) := by
  walk_back main_v76
  exact (pipe_3 (V16 m outs c) _ rfl).2.1.trans (congrArg Spec.hsum (agg_3 m outs c))

theorem V29_main_v81 (c : Dev nD) :
    (V29 m outs c main_v81 : (⟨S50000x1, .f32⟩ : BufTy).Contents (Elt F))
      = Spec.mean (Spec.agg (outs 4 main_v9_1 c) (outs 2 main_v4_0 c) (m (c, main_arg6)) (m (c, main_arg7))) := by
  walk_back main_v81
  exact (pipe_3 (V16 m outs c) _ rfl).2.2.trans (congrArg Spec.mean (agg_3 m outs c))

theorem pipe_4 (X : Valuation τ sig (Elt F)) (hX : X = after hostOps2_23 (after hostOps2_22 (after hostOps2_21 (after hostOps2_20 (after hostOps2_19 (after hostOps2_18 W)))))) :
    X main_v99 = Spec.agg (W main_v9_2) (W main_v4_0) (W main_arg8) (W main_arg9)
      ∧ X main_v100 = Spec.hsum (X main_v99) ∧ X main_v105 = Spec.mean (X main_v99) := by
  subst hX
  dsimp only [hostOps2_18, hostOps2_19, hostOps2_20, hostOps2_21, hostOps2_22, hostOps2_23]
  after_results_simp
  exact ⟨rfl, rfl, rfl⟩

theorem agg_4 (c : Dev nD) :
    V28 m outs c main_v99 = Spec.agg (outs 4 main_v9_2 c) (outs 2 main_v4_0 c) (m (c, main_arg8)) (m (c, main_arg9)) := by
  rw [(pipe_4 (V22 m outs c) (V28 m outs c) rfl).1]
  walk_back main_v9_2
  walk_back main_v4_0
  walk_back main_arg8
  walk_back main_arg9
  simp (disch := exact StableHlo.devRef_ne_of_ne (by decide)) only [V2, V4, Function.update_self, Function.update_of_ne]

theorem V29_main_v100 (c : Dev nD) :
    (V29 m outs c main_v100 : (⟨S50000x128, .f32⟩ : BufTy).Contents (Elt F))
      = Spec.hsum (Spec.agg (outs 4 main_v9_2 c) (outs 2 main_v4_0 c) (m (c, main_arg8)) (m (c, main_arg9))) := by
  walk_back main_v100
  exact (pipe_4 (V22 m outs c) _ rfl).2.1.trans (congrArg Spec.hsum (agg_4 m outs c))

theorem V29_main_v105 (c : Dev nD) :
    (V29 m outs c main_v105 : (⟨S50000x1, .f32⟩ : BufTy).Contents (Elt F))
      = Spec.mean (Spec.agg (outs 4 main_v9_2 c) (outs 2 main_v4_0 c) (m (c, main_arg8)) (m (c, main_arg9))) := by
  walk_back main_v105
  exact (pipe_4 (V22 m outs c) _ rfl).2.2.trans (congrArg Spec.mean (agg_4 m outs c))

theorem V31_main_v110 (c : Dev nD) :
    (V31 m outs c main_v110 : (⟨S2x50000x128, .f32⟩ : BufTy).Contents (Elt F)) = Spec.stack (outs 29 main_v106 c) (outs 30 main_v107 c) := by
  dsimp only [V31, hostOps4]
  after_results
  simp (disch := exact StableHlo.devRef_ne_of_ne (by decide)) only [V30, V29, Function.update_self, Function.update_of_ne]
  rfl

end Cert.KernelIdeal.Gen

end
-- ==== Proof.KIRegionValue0.lean ====
import proofs.«412146_j64725157151125_3_alg».proof.Proof.KIRegion0
import Idealize.ShloMosaic.Lib.ValueIdxCoords
import Idealize.ShloMosaic.Lib.StackMember

noncomputable section

namespace Cert.KernelIdeal.Gen

open Idealize.ShloMosaic Idealize.ShloMosaic.TcCoe Idealize.SL.Sem Idealize.ShloMosaic.ValueIdx

variable (V : (c : Dev nD) → (b : Ref sig .tc) → Buf (Elt Ideal) ((c : Thread nD τ).loc b))

abbrev xin0 (c : Dev nD) : Vec Ideal S50000x128 .f32 := V c (Pipeline.arrRef spec0 0)
abbrev wAin0 (c : Dev nD) : Vec Ideal S128x128 .f32 := V c (Pipeline.arrRef spec0 1)
abbrev wBin0 (c : Dev nD) : Vec Ideal S128x128 .f32 := V c (Pipeline.arrRef spec0 2)
abbrev wCin0 (c : Dev nD) : Vec Ideal S128x128 .f32 := V c (Pipeline.arrRef spec0 3)
abbrev bin0 (c : Dev nD) : Vec Ideal S1x128 .f32 := V c (Pipeline.arrRef spec0 4)

theorem hzero0 : (![0, 0] : Fin 2 → Nat) = fun _ => 0 := by decide

-- the second and third payloads are one term: a block product into the zero accumulator is the plain sum over the contracted coordinate, and narrowing the operands is the identity on exact values
theorem pay0_3_apply (x : Vec Ideal S5000x128 .f32) (w : Vec Ideal S128x128 .f32) (y : S5000x128.Idx) :
    k0_pay3 x w y = ∑ k : Fin 128, x (ix2 (y 0) k) * w (ix2 k (y 1)) :=
  (congrArg _ (eq_ix2 y)).trans (((congrFun (matmul_zero_eq_dotGeneral _ none _ _) _).trans (StackMember.dotGeneral_plain_apply none _ _ (y 0) (y 1))).trans (by rw [shapeCast_self]; rfl))

-- the first payload is that product plus the bias row laid along every row
theorem pay0_2_apply (x : Vec Ideal S5000x128 .f32) (w : Vec Ideal S128x128 .f32) (b : Vec Ideal S1x128 .f32) (y : S5000x128.Idx) :
    k0_pay2 x w b y = k0_pay3 x w y + b (ix2 (0 : Fin 1) (y 1)) :=
  congrArg (k0_pay3 x w y + ·) ((broadcastTo_apply _ broadcasts_S1x128_S5000x128 y (ix2 (0 : Fin 1) (y 1)) (Fin.forall_fin_two.2 ⟨rfl, rfl⟩)).trans (congrFun (shapeCast_self b _) _))

-- the weights' and the bias's blocks are their whole arrays
theorem iblk0_whole (c : Dev nD) (t : Fin cfg0.N) :
    iblk0 V c 1 t = wAin0 V c ∧ iblk0 V c 2 t = wBin0 V c ∧ iblk0 V c 3 t = wCin0 V c ∧ iblk0 V c 4 t = bin0 V c := by
  refine ⟨?_, ?_, ?_, ?_⟩ <;> exact funext fun y => congrArg (V c _) (Shape.idx_ext₂ (Pipeline.Window.rect_emb_val_of_index_zero _ t 0 rfl y) (Pipeline.Window.rect_emb_val_of_index_zero _ t 1 rfl y))

-- rows times a weight, index by index
def Gprod0 (x : Vec Ideal S50000x128 .f32) (w : Vec Ideal S128x128 .f32) : Vec Ideal S50000x128 .f32 :=
  fun i => ∑ k : Fin 128, x (ix2 (i 0) k) * w (ix2 k (i 1))

def Gbias0 (x : Vec Ideal S50000x128 .f32) (w : Vec Ideal S128x128 .f32) (b : Vec Ideal S1x128 .f32) : Vec Ideal S50000x128 .f32 :=
  fun i => Gprod0 x w i + b (ix2 (0 : Fin 1) (i 1))

-- row p of the rows' block at point t is the array's row under (p, ·) of the output windows' block at t: the block product is the product array there
theorem prod0_blk (c : Dev nD) (t : Fin cfg0.N) (w : Vec Ideal S128x128 .f32) (y : S5000x128.Idx) :
    k0_pay3 (iblk0 V c 0 t) w y = Gprod0 (xin0 V c) w (((cfg0.win 6).blk t).view.emb y) :=
  (pay0_3_apply _ w y).trans (Finset.sum_congr rfl fun k _ => congrArg₂ (· * ·)
    (congrArg (xin0 V c) (Shape.idx_ext₂ rfl (win0_0.rect_emb_val_of_index_zero t 1 rfl (ix2 (y 0) k))))
    (congrArg w (Shape.idx_ext₂ rfl (win0_6.rect_emb_val_of_index_zero t 1 rfl y).symm)))

-- the whole-block rectangle at zero offsets is the identity, read through or written through; so such a product cut to the output windows' block at t is that block of the product array
theorem prod0_read (c : Dev nD) (t : Fin cfg0.N) (w : Vec Ideal S128x128 .f32) :
    (cfg0.win 6).cut (grid0.coords t) (out0_6 (iblk0 V c 0 t) w) = ((cfg0.win 6).blk t).view.read (Elt Ideal) (Gprod0 (xin0 V c) w) := by
  unfold out0_6
  simp only [View.ld_unit_zero (S := S5000x128) hzero0, View.ld_unit_zero (S := S128x128) hzero0]
  rw [View.canon_unit_zero hzero0]
  exact funext (prod0_blk V c t w)

theorem rowIdx0 : ∀ t : Fin cfg0.N, win0_5.index t 0 = t.val := (by decide +kernel : ∀ t : Fin grid0.N, _)

-- the three output windows share one blocking of the rows: row r lies in block r / 5000
theorem blocks_cover0 (i : S50000x128.Idx) :
    ∃ t : Fin cfg0.N, (cfg0.win 5).flush t = true ∧ i ∈ ((cfg0.win 5).blk t).view.set := by
  have hrow : (i 0).val < 50000 := (i 0).isLt
  obtain ⟨t, ht⟩ : ∃ t : Fin cfg0.N, t.val = (i 0).val / 5000 := ⟨⟨(i 0).val / 5000, by show _ < grid0.N; rw [N_0]; omega⟩, rfl⟩
  refine ⟨t, flush0_5 t, ?_⟩
  show i ∈ ((View.whole (Pipeline.arrRef spec0 5)).slice (win0_5.rect t)).set
  rw [View.set_slice_whole, Rect.mem_set_unit]
  intro a
  match a with
  | ⟨0, _⟩ => show win0_5.index t 0 * 5000 ≤ (i 0).val ∧ (i 0).val < win0_5.index t 0 * 5000 + 5000; rw [rowIdx0, ht]; omega
  | ⟨1, _⟩ => exact ⟨Nat.zero_le _, (i 1).isLt⟩

theorem out0_5_apply (c : Dev nD) (r : Fin 50000) (j : Fin 128) :
    (dat0 (F := Ideal) V c).arrAt 5 cfg0.N (ix2 r j) = (∑ k : Fin 128, xin0 V c (ix2 r k) * wAin0 V c (ix2 k j)) + bin0 V c (ix2 (0 : Fin 1) j) :=
  congrFun ((dat0 (F := Ideal) V c).arrAt_eq_of_cover 5 (Gbias0 (xin0 V c) (wAin0 V c) (bin0 V c)) (fun t _ => funext fun y => by
    obtain ⟨hA, -, -, hb⟩ := iblk0_whole V c t
    show (dat0 V c).after 5 t y = Gbias0 _ _ _ (((cfg0.win 5).blk t).view.emb y)
    rw [after0_5]
    unfold out0_5
    simp only [View.ld_unit_zero (S := S5000x128) hzero0, View.ld_unit_zero (S := S128x128) hzero0, View.ld_unit_zero (S := S1x128) hzero0]
    rw [View.canon_unit_zero hzero0, pay0_2_apply, hA, hb]
    exact congrArg₂ (· + ·) (prod0_blk V c t _ y) (congrArg _ (Shape.idx_ext₂ rfl (win0_5.rect_emb_val_of_index_zero t 1 rfl y).symm))) blocks_cover0) _

theorem out0_6_apply (c : Dev nD) (r : Fin 50000) (j : Fin 128) :
    (dat0 (F := Ideal) V c).arrAt 6 cfg0.N (ix2 r j) = ∑ k : Fin 128, xin0 V c (ix2 r k) * wBin0 V c (ix2 k j) :=
  congrFun ((dat0 (F := Ideal) V c).arrAt_eq_of_cover 6 (Gprod0 (xin0 V c) (wBin0 V c)) (fun t _ => by
    rw [← (iblk0_whole V c t).2.1]; exact (congrArg _ (after0_6 V c t)).trans (prod0_read V c t _)) blocks_cover0) _

theorem out0_7_apply (c : Dev nD) (r : Fin 50000) (j : Fin 128) :
    (dat0 (F := Ideal) V c).arrAt 7 cfg0.N (ix2 r j) = ∑ k : Fin 128, xin0 V c (ix2 r k) * wCin0 V c (ix2 k j) :=
  congrFun ((dat0 (F := Ideal) V c).arrAt_eq_of_cover 7 (Gprod0 (xin0 V c) (wCin0 V c)) (fun t _ => by
    rw [← (iblk0_whole V c t).2.2.1]; exact (congrArg _ (after0_7 V c t)).trans (prod0_read V c t _)) blocks_cover0) _

end Cert.KernelIdeal.Gen

end
-- ==== Proof.KIRegionValue1.lean ====
import proofs.«412146_j64725157151125_3_alg».proof.Proof.KIRegion1
import Idealize.ShloMosaic.Lib.ValueIdxCoords
import Idealize.ShloMosaic.Lib.StackMember

noncomputable section

namespace Cert.KernelIdeal.Gen

open Idealize.ShloMosaic Idealize.ShloMosaic.TcCoe Idealize.SL.Sem Idealize.ShloMosaic.ValueIdx

variable (V : (c : Dev nD) → (b : Ref sig .tc) → Buf (Elt Ideal) ((c : Thread nD τ).loc b))

abbrev xin1 (c : Dev nD) : Vec Ideal S50000x128 .f32 := V c (Pipeline.arrRef spec1 0)
abbrev wAin1 (c : Dev nD) : Vec Ideal S128x128 .f32 := V c (Pipeline.arrRef spec1 1)
abbrev wBin1 (c : Dev nD) : Vec Ideal S128x128 .f32 := V c (Pipeline.arrRef spec1 2)
abbrev wCin1 (c : Dev nD) : Vec Ideal S128x128 .f32 := V c (Pipeline.arrRef spec1 3)
abbrev bin1 (c : Dev nD) : Vec Ideal S1x128 .f32 := V c (Pipeline.arrRef spec1 4)

theorem hzero1 : (![0, 0] : Fin 2 → Nat) = fun _ => 0 := by decide

-- the second and third payloads are one term: a block product into the zero accumulator is the plain sum over the contracted coordinate, and narrowing the operands is the identity on exact values
theorem pay1_3_apply (x : Vec Ideal S5000x128 .f32) (w : Vec Ideal S128x128 .f32) (y : S5000x128.Idx) :
    k1_pay3 x w y = ∑ k : Fin 128, x (ix2 (y 0) k) * w (ix2 k (y 1)) :=
  (congrArg _ (eq_ix2 y)).trans (((congrFun (matmul_zero_eq_dotGeneral _ none _ _) _).trans (StackMember.dotGeneral_plain_apply none _ _ (y 0) (y 1))).trans (by rw [shapeCast_self]; rfl))

-- the first payload is that product plus the bias row laid along every row
theorem pay1_2_apply (x : Vec Ideal S5000x128 .f32) (w : Vec Ideal S128x128 .f32) (b : Vec Ideal S1x128 .f32) (y : S5000x128.Idx) :
    k1_pay2 x w b y = k1_pay3 x w y + b (ix2 (0 : Fin 1) (y 1)) :=
  congrArg (k1_pay3 x w y + ·) ((broadcastTo_apply _ broadcasts_S1x128_S5000x128 y (ix2 (0 : Fin 1) (y 1)) (Fin.forall_fin_two.2 ⟨rfl, rfl⟩)).trans (congrFun (shapeCast_self b _) _))

-- the weights' and the bias's blocks are their whole arrays
theorem iblk1_whole (c : Dev nD) (t : Fin cfg1.N) :
    iblk1 V c 1 t = wAin1 V c ∧ iblk1 V c 2 t = wBin1 V c ∧ iblk1 V c 3 t = wCin1 V c ∧ iblk1 V c 4 t = bin1 V c := by
  refine ⟨?_, ?_, ?_, ?_⟩ <;> exact funext fun y => congrArg (V c _) (Shape.idx_ext₂ (Pipeline.Window.rect_emb_val_of_index_zero _ t 0 rfl y) (Pipeline.Window.rect_emb_val_of_index_zero _ t 1 rfl y))

-- rows times a weight, index by index
def Gprod1 (x : Vec Ideal S50000x128 .f32) (w : Vec Ideal S128x128 .f32) : Vec Ideal S50000x128 .f32 :=
  fun i => ∑ k : Fin 128, x (ix2 (i 0) k) * w (ix2 k (i 1))

def Gbias1 (x : Vec Ideal S50000x128 .f32) (w : Vec Ideal S128x128 .f32) (b : Vec Ideal S1x128 .f32) : Vec Ideal S50000x128 .f32 :=
  fun i => Gprod1 x w i + b (ix2 (0 : Fin 1) (i 1))

-- row p of the rows' block at point t is the array's row under (p, ·) of the output windows' block at t: the block product is the product array there
theorem prod1_blk (c : Dev nD) (t : Fin cfg1.N) (w : Vec Ideal S128x128 .f32) (y : S5000x128.Idx) :
    k1_pay3 (iblk1 V c 0 t) w y = Gprod1 (xin1 V c) w (((cfg1.win 6).blk t).view.emb y) :=
  (pay1_3_apply _ w y).trans (Finset.sum_congr rfl fun k _ => congrArg₂ (· * ·)
    (congrArg (xin1 V c) (Shape.idx_ext₂ rfl (win1_0.rect_emb_val_of_index_zero t 1 rfl (ix2 (y 0) k))))
    (congrArg w (Shape.idx_ext₂ rfl (win1_6.rect_emb_val_of_index_zero t 1 rfl y).symm)))

-- the whole-block rectangle at zero offsets is the identity, read through or written through; so such a product cut to the output windows' block at t is that block of the product array
theorem prod1_read (c : Dev nD) (t : Fin cfg1.N) (w : Vec Ideal S128x128 .f32) :
    (cfg1.win 6).cut (grid1.coords t) (out1_6 (iblk1 V c 0 t) w) = ((cfg1.win 6).blk t).view.read (Elt Ideal) (Gprod1 (xin1 V c) w) := by
  unfold out1_6
  simp only [View.ld_unit_zero (S := S5000x128) hzero1, View.ld_unit_zero (S := S128x128) hzero1]
  rw [View.canon_unit_zero hzero1]
  exact funext (prod1_blk V c t w)

theorem rowIdx1 : ∀ t : Fin cfg1.N, win1_5.index t 0 = t.val := (by decide +kernel : ∀ t : Fin grid1.N, _)

-- the three output windows share one blocking of the rows: row r lies in block r / 5000
theorem blocks_cover1 (i : S50000x128.Idx) :
    ∃ t : Fin cfg1.N, (cfg1.win 5).flush t = true ∧ i ∈ ((cfg1.win 5).blk t).view.set := by
  have hrow : (i 0).val < 50000 := (i 0).isLt
  obtain ⟨t, ht⟩ : ∃ t : Fin cfg1.N, t.val = (i 0).val / 5000 := ⟨⟨(i 0).val / 5000, by show _ < grid1.N; rw [N_1]; omega⟩, rfl⟩
  refine ⟨t, flush1_5 t, ?_⟩
  show i ∈ ((View.whole (Pipeline.arrRef spec1 5)).slice (win1_5.rect t)).set
  rw [View.set_slice_whole, Rect.mem_set_unit]
  intro a
  match a with
  | ⟨0, _⟩ => show win1_5.index t 0 * 5000 ≤ (i 0).val ∧ (i 0).val < win1_5.index t 0 * 5000 + 5000; rw [rowIdx1, ht]; omega
  | ⟨1, _⟩ => exact ⟨Nat.zero_le _, (i 1).isLt⟩

theorem out1_5_apply (c : Dev nD) (r : Fin 50000) (j : Fin 128) :
    (dat1 (F := Ideal) V c).arrAt 5 cfg1.N (ix2 r j) = (∑ k : Fin 128, xin1 V c (ix2 r k) * wAin1 V c (ix2 k j)) + bin1 V c (ix2 (0 : Fin 1) j) :=
  congrFun ((dat1 (F := Ideal) V c).arrAt_eq_of_cover 5 (Gbias1 (xin1 V c) (wAin1 V c) (bin1 V c)) (fun t _ => funext fun y => by
    obtain ⟨hA, -, -, hb⟩ := iblk1_whole V c t
    show (dat1 V c).after 5 t y = Gbias1 _ _ _ (((cfg1.win 5).blk t).view.emb y)
    rw [after1_5]
    unfold out1_5
    simp only [View.ld_unit_zero (S := S5000x128) hzero1, View.ld_unit_zero (S := S128x128) hzero1, View.ld_unit_zero (S := S1x128) hzero1]
    rw [View.canon_unit_zero hzero1, pay1_2_apply, hA, hb]
    exact congrArg₂ (· + ·) (prod1_blk V c t _ y) (congrArg _ (Shape.idx_ext₂ rfl (win1_5.rect_emb_val_of_index_zero t 1 rfl y).symm))) blocks_cover1) _

theorem out1_6_apply (c : Dev nD) (r : Fin 50000) (j : Fin 128) :
    (dat1 (F := Ideal) V c).arrAt 6 cfg1.N (ix2 r j) = ∑ k : Fin 128, xin1 V c (ix2 r k) * wBin1 V c (ix2 k j) :=
  congrFun ((dat1 (F := Ideal) V c).arrAt_eq_of_cover 6 (Gprod1 (xin1 V c) (wBin1 V c)) (fun t _ => by
    rw [← (iblk1_whole V c t).2.1]; exact (congrArg _ (after1_6 V c t)).trans (prod1_read V c t _)) blocks_cover1) _

theorem out1_7_apply (c : Dev nD) (r : Fin 50000) (j : Fin 128) :
    (dat1 (F := Ideal) V c).arrAt 7 cfg1.N (ix2 r j) = ∑ k : Fin 128, xin1 V c (ix2 r k) * wCin1 V c (ix2 k j) :=
  congrFun ((dat1 (F := Ideal) V c).arrAt_eq_of_cover 7 (Gprod1 (xin1 V c) (wCin1 V c)) (fun t _ => by
    rw [← (iblk1_whole V c t).2.2.1]; exact (congrArg _ (after1_7 V c t)).trans (prod1_read V c t _)) blocks_cover1) _

end Cert.KernelIdeal.Gen

end
-- ==== Proof.MathSpec.lean ====
import Idealize.ShloMosaic.PureOps.Ideal

noncomputable section

namespace Cert.Math

open Idealize.ShloMosaic

-- the two-way softmax of (p, q), shifted by their maximum, weighing a and b
def comb2 (a b p q : EReal) : EReal :=
  Ideal.div (Ideal.exp (p - max p q)) (Ideal.exp (p - max p q) + Ideal.exp (q - max p q)) * a
    + Ideal.div (Ideal.exp (q - max p q)) (Ideal.exp (p - max p q) + Ideal.exp (q - max p q)) * b

end Cert.Math

end
-- ==== Proof.KIRegionValue2.lean ====
import proofs.«412146_j64725157151125_3_alg».proof.Proof.KIRegion2
import proofs.«412146_j64725157151125_3_alg».proof.Proof.MathSpec
import Idealize.ShloMosaic.Lib.Pipeline.Value
import Idealize.ShloMosaic.Lib.ValueIdx
import Idealize.ShloMosaic.Lib.ValueLayout

noncomputable section

namespace Cert.KernelIdeal.Gen

open Idealize.ShloMosaic Idealize.ShloMosaic.TcCoe Idealize.SL.Sem
open Idealize.ShloMosaic.ValueIdx

theorem hz2 : (![0, 0] : Fin 2 → Nat) = fun _ => 0 := by decide

-- a column laid along every column of a block reads, at (p, q), the column's entry at row p
theorem col2_apply (v : Vec Ideal S5000x1 .f32) (p : Fin 5000) (q : Fin 128) :
    broadcastTo S5000x128 v broadcasts_S5000x1_S5000x128 (ix2 p q) = v (ix2 p (0 : Fin 1)) :=
  broadcastTo_apply v _ _ _ (Fin.forall_fin_two.2 ⟨rfl, rfl⟩)

-- the payload at (p, q): the two columns' entries at row p weigh the two wide blocks' entries at (p, q)
theorem k2_pay1_apply (pa pb : Vec Ideal S5000x1 .f32) (xa xb : Vec Ideal S5000x128 .f32) (p : Fin 5000) (q : Fin 128) :
    k2_pay1 pa pb xa xb (ix2 p q)
      = Cert.Math.comb2 (xa (ix2 p q)) (xb (ix2 p q)) (pa (ix2 p (0 : Fin 1))) (pb (ix2 p (0 : Fin 1))) := by
  unfold k2_pay1 Cert.Math.comb2
  simp only [shapeCast_self, addf_apply, mulf_apply]
  rw [col2_apply, col2_apply]
  rfl

section Region
variable (V : (c : Dev nD) → (b : Ref sig .tc) → Buf (Elt Ideal) ((c : Thread nD τ).loc b))

abbrev hin2a (c : Dev nD) : Vec Ideal S50000x128 .f32 := V c (Pipeline.arrRef spec2 0)
abbrev hin2b (c : Dev nD) : Vec Ideal S50000x128 .f32 := V c (Pipeline.arrRef spec2 1)
abbrev att2a (c : Dev nD) : Vec Ideal S50000x1 .f32 := V c (Pipeline.arrRef spec2 2)
abbrev att2b (c : Dev nD) : Vec Ideal S50000x1 .f32 := V c (Pipeline.arrRef spec2 3)

-- what the output array ends holding: at each index the combination of the wide arrays there under the columns at its row
abbrev outArr2 (c : Dev nD) : S50000x128.Idx → EReal := fun i =>
  Cert.Math.comb2 (hin2a V c i) (hin2b V c i) (att2a V c (ix2 (i 0) (0 : Fin 1))) (att2b V c (ix2 (i 0) (0 : Fin 1)))

theorem rowIdx2 : ∀ t : Fin cfg2.N, win2_4.index t 0 = t.val := (by decide +kernel : ∀ t : Fin grid2.N, _)

-- row r lies in block r / 5000
theorem covered2 (i : S50000x128.Idx) :
    ∃ t : Fin cfg2.N, (cfg2.win 4).flush t = true ∧ i ∈ ((cfg2.win 4).blk t).view.set := by
  have hrow : (i 0).val < 50000 := (i 0).isLt
  obtain ⟨t, ht⟩ : ∃ t : Fin cfg2.N, t.val = (i 0).val / 5000 := ⟨⟨(i 0).val / 5000, by show _ < grid2.N; rw [N_2]; omega⟩, rfl⟩
  refine ⟨t, flush2_4 t, ?_⟩
  show i ∈ ((View.whole (Pipeline.arrRef spec2 4)).slice (win2_4.rect t)).set
  rw [View.set_slice_whole, Rect.mem_set_unit]
  intro a
  match a with
  | ⟨0, _⟩ => show win2_4.index t 0 * 5000 ≤ (i 0).val ∧ (i 0).val < win2_4.index t 0 * 5000 + 5000; rw [rowIdx2, ht]; omega
  | ⟨1, _⟩ => exact ⟨Nat.zero_le _, (i 1).isLt⟩

theorem out2_4_apply (c : Dev nD) (n : Fin 50000) (d : Fin 128) :
    (dat2 (F := Ideal) V c).arrAt 4 cfg2.N (ix2 n d)
      = Cert.Math.comb2 (hin2a V c (ix2 n d)) (hin2b V c (ix2 n d)) (att2a V c (ix2 n (0 : Fin 1))) (att2b V c (ix2 n (0 : Fin 1))) :=
  congrFun ((dat2 (F := Ideal) V c).arrAt_eq_of_cover 4 (outArr2 V c) (fun t _ => funext fun y => by
    obtain ⟨p, q, rfl⟩ : ∃ (p : Fin 5000) (q : Fin 128), y = ix2 p q := ⟨y 0, y 1, eq_ix2 y⟩
    show (dat2 V c).after 4 t (ix2 p q) = outArr2 V c (((cfg2.win 4).blk t).view.emb (ix2 p q))
    rw [after2_4]
    unfold out2_4
    simp only [View.ld_unit_zero (S := S5000x128) hz2, View.ld_unit_zero (S := S5000x1) hz2]
    rw [View.canon_unit_zero hz2, k2_pay1_apply]
    exact congrArg₂ (Cert.Math.comb2 _ _) (congrArg (att2a V c) (Shape.idx_ext₂ rfl rfl)) (congrArg (att2b V c) (Shape.idx_ext₂ rfl rfl))) covered2) _

end Region

end Cert.KernelIdeal.Gen

end
-- ==== Proof.KIRegionValue3.lean ====
import proofs.«412146_j64725157151125_3_alg».proof.Proof.KIRegion3
import proofs.«412146_j64725157151125_3_alg».proof.Proof.MathSpec
import Idealize.ShloMosaic.Lib.Pipeline.Value
import Idealize.ShloMosaic.Lib.ValueIdx
import Idealize.ShloMosaic.Lib.ValueLayout

noncomputable section

namespace Cert.KernelIdeal.Gen

open Idealize.ShloMosaic Idealize.ShloMosaic.TcCoe Idealize.SL.Sem
open Idealize.ShloMosaic.ValueIdx

theorem hz3 : (![0, 0] : Fin 2 → Nat) = fun _ => 0 := by decide

-- a column laid along every column of a block reads, at (p, q), the column's entry at row p
theorem col3_apply (v : Vec Ideal S5000x1 .f32) (p : Fin 5000) (q : Fin 128) :
    broadcastTo S5000x128 v broadcasts_S5000x1_S5000x128 (ix2 p q) = v (ix2 p (0 : Fin 1)) :=
  broadcastTo_apply v _ _ _ (Fin.forall_fin_two.2 ⟨rfl, rfl⟩)

-- the payload at (p, q): the two columns' entries at row p weigh the two wide blocks' entries at (p, q)
theorem k3_pay1_apply (pa pb : Vec Ideal S5000x1 .f32) (xa xb : Vec Ideal S5000x128 .f32) (p : Fin 5000) (q : Fin 128) :
    k3_pay1 pa pb xa xb (ix2 p q)
      = Cert.Math.comb2 (xa (ix2 p q)) (xb (ix2 p q)) (pa (ix2 p (0 : Fin 1))) (pb (ix2 p (0 : Fin 1))) := by
  unfold k3_pay1 Cert.Math.comb2
  simp only [shapeCast_self, addf_apply, mulf_apply]
  rw [col3_apply, col3_apply]
  rfl

section Region
variable (V : (c : Dev nD) → (b : Ref sig .tc) → Buf (Elt Ideal) ((c : Thread nD τ).loc b))

abbrev hin3a (c : Dev nD) : Vec Ideal S50000x128 .f32 := V c (Pipeline.arrRef spec3 0)
abbrev hin3b (c : Dev nD) : Vec Ideal S50000x128 .f32 := V c (Pipeline.arrRef spec3 1)
abbrev att3a (c : Dev nD) : Vec Ideal S50000x1 .f32 := V c (Pipeline.arrRef spec3 2)
abbrev att3b (c : Dev nD) : Vec Ideal S50000x1 .f32 := V c (Pipeline.arrRef spec3 3)

-- what the output array ends holding: at each index the combination of the wide arrays there under the columns at its row
abbrev outArr3 (c : Dev nD) : S50000x128.Idx → EReal := fun i =>
  Cert.Math.comb2 (hin3a V c i) (hin3b V c i) (att3a V c (ix2 (i 0) (0 : Fin 1))) (att3b V c (ix2 (i 0) (0 : Fin 1)))

theorem rowIdx3 : ∀ t : Fin cfg3.N, win3_4.index t 0 = t.val := (by decide +kernel : ∀ t : Fin grid3.N, _)

-- row r lies in block r / 5000
theorem covered3 (i : S50000x128.Idx) :
    ∃ t : Fin cfg3.N, (cfg3.win 4).flush t = true ∧ i ∈ ((cfg3.win 4).blk t).view.set := by
  have hrow : (i 0).val < 50000 := (i 0).isLt
  obtain ⟨t, ht⟩ : ∃ t : Fin cfg3.N, t.val = (i 0).val / 5000 := ⟨⟨(i 0).val / 5000, by show _ < grid3.N; rw [N_3]; omega⟩, rfl⟩
  refine ⟨t, flush3_4 t, ?_⟩
  show i ∈ ((View.whole (Pipeline.arrRef spec3 4)).slice (win3_4.rect t)).set
  rw [View.set_slice_whole, Rect.mem_set_unit]
  intro a
  match a with
  | ⟨0, _⟩ => show win3_4.index t 0 * 5000 ≤ (i 0).val ∧ (i 0).val < win3_4.index t 0 * 5000 + 5000; rw [rowIdx3, ht]; omega
  | ⟨1, _⟩ => exact ⟨Nat.zero_le _, (i 1).isLt⟩

theorem out3_4_apply (c : Dev nD) (n : Fin 50000) (d : Fin 128) :
    (dat3 (F := Ideal) V c).arrAt 4 cfg3.N (ix2 n d)
      = Cert.Math.comb2 (hin3a V c (ix2 n d)) (hin3b V c (ix2 n d)) (att3a V c (ix2 n (0 : Fin 1))) (att3b V c (ix2 n (0 : Fin 1))) :=
  congrFun ((dat3 (F := Ideal) V c).arrAt_eq_of_cover 4 (outArr3 V c) (fun t _ => funext fun y => by
    obtain ⟨p, q, rfl⟩ : ∃ (p : Fin 5000) (q : Fin 128), y = ix2 p q := ⟨y 0, y 1, eq_ix2 y⟩
    show (dat3 V c).after 4 t (ix2 p q) = outArr3 V c (((cfg3.win 4).blk t).view.emb (ix2 p q))
    rw [after3_4]
    unfold out3_4
    simp only [View.ld_unit_zero (S := S5000x128) hz3, View.ld_unit_zero (S := S5000x1) hz3]
    rw [View.canon_unit_zero hz3, k3_pay1_apply]
    exact congrArg₂ (Cert.Math.comb2 _ _) (congrArg (att3a V c) (Shape.idx_ext₂ rfl rfl)) (congrArg (att3b V c) (Shape.idx_ext₂ rfl rfl))) covered3) _

end Region

end Cert.KernelIdeal.Gen

end
-- ==== Proof.RefSpec.lean ====
import proofs.«412146_j64725157151125_3_alg».proof.Proof.Gen.ReferenceIdeal

noncomputable section

namespace Cert.ReferenceIdeal.Spec

open Cert.ReferenceIdeal Cert.ReferenceIdeal.Facts₀ Cert.ReferenceIdeal.Facts Idealize.ShloMosaic Idealize.ShloMosaic.TcCoe

variable {F : FTy → Type} [FloatOps F]

def proj (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x (transpose S128x128 [1, 0] w transposes_S128x128_S128x128_1_0)

def projB (x : (⟨S50000x128, .f32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  addf (proj x w) (broadcastInDim S50000x128 ![0, 1] bcast_S1x128_S50000x128_0_1 (broadcastInDim S1x128 ![1] bcast_S128_S1x128_1 b))

def wrap (idx : (⟨S640000, .i32⟩ : BufTy).Contents (Elt F)) : (⟨S640000, .i32⟩ : BufTy).Contents (Elt F) :=
  select (cmpi .slt idx (broadcastInDim S640000 ![] bcast_S_S640000 (constantI S_ 32 0#32)))
    (addi idx (broadcastInDim S640000 ![] bcast_S_S640000 (constantI S_ 32 50000#32))) idx

def take (x : (⟨S50000x128, .f32⟩ : BufTy).Contents (Elt F)) (idx : (⟨S640000, .i32⟩ : BufTy).Contents (Elt F)) : (⟨S640000x128, .f32⟩ : BufTy).Contents (Elt F) :=
  Host.gather gather_S50000x128_S640000x1_S640000x128_1_0_n_n_0_1_1128 x (broadcastInDim S640000x1 ![0] bcast_S640000_S640000x1_0 (wrap idx))

def norm (x : (⟨S640000x128, .f32⟩ : BufTy).Contents (Elt F)) : (⟨S640000, .f32⟩ : BufTy).Contents (Elt F) :=
  Host.sqrt (Host.reduceAdd (mulf x x) (constant S_ .f32 0x00000000#32) reducesTo_S640000x128_S640000_d1 h_S_)

def att (hre hte : (⟨S640000x128, .f32⟩ : BufTy).Contents (Elt F)) : (⟨S640000x1, .f32⟩ : BufTy).Contents (Elt F) :=
  broadcastInDim S640000x1 ![0] bcast_S640000_S640000x1_0
    (Host.divf (Host.reduceAdd (mulf hre hte) (constant S_ .f32 0x00000000#32) reducesTo_S640000x128_S640000_d1 h_S_)
      (maximumf (mulf (norm hre) (norm hte)) (broadcastInDim S640000 ![] bcast_S_S640000 (constant S_ .f32 0x322BCC77#32))))

def hsum (hre : (⟨S640000x128, .f32⟩ : BufTy).Contents (Elt F)) (a : (⟨S640000x1, .f32⟩ : BufTy).Contents (Elt F)) (dst : (⟨S640000, .i32⟩ : BufTy).Contents (Elt F)) : (⟨S50000x128, .f32⟩ : BufTy).Contents (Elt F) :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (mulf (broadcastInDim S640000x128 ![0, 1] bcast_S640000x1_S640000x128_0_1 a) hre)

def asum (a : (⟨S640000x1, .f32⟩ : BufTy).Contents (Elt F)) (dst : (⟨S640000, .i32⟩ : BufTy).Contents (Elt F)) : (⟨S50000x1, .f32⟩ : BufTy).Contents (Elt F) :=
  Host.scatterAdd scatter_S50000x1_S640000x1_S640000x1_1_0_0_1
    (broadcastInDim S50000x1 ![] bcast_S_S50000x1 (constant S_ .f32 0x00000000#32))
    (broadcastInDim S640000x1 ![0] bcast_S640000_S640000x1_0 dst) a

def cnt (dst : (⟨S640000, .i32⟩ : BufTy).Contents (Elt F)) : (⟨S50000x1, .f32⟩ : BufTy).Contents (Elt F) :=
  Host.scatterAdd scatter_S50000x1_S640000x1_S640000x1_1_0_0_1
    (broadcastInDim S50000x1 ![] bcast_S_S50000x1 (constant S_ .f32 0x00000000#32))
    (broadcastInDim S640000x1 ![0] bcast_S640000_S640000x1_0 dst)
    (broadcastInDim S640000x1 ![] bcast_S_S640000x1 (constant S_ .f32 0x3F800000#32))

def mean (a : (⟨S640000x1, .f32⟩ : BufTy).Contents (Elt F)) (dst : (⟨S640000, .i32⟩ : BufTy).Contents (Elt F)) : (⟨S50000x1, .f32⟩ : BufTy).Contents (Elt F) :=
  Host.divf (asum a dst) (maximumf (cnt dst) (broadcastInDim S50000x1 ![] bcast_S_S50000x1 (constant S_ .f32 0x3F800000#32)))

def mstack (m1 m2 : (⟨S50000x1, .f32⟩ : BufTy).Contents (Elt F)) : (⟨S50000x2x1, .f32⟩ : BufTy).Contents (Elt F) :=
  concatenate S50000x2x1 1 [⟨S50000x1x1, broadcastInDim S50000x1x1 ![0, 2] bcast_S50000x1_S50000x1x1_0_2 m1⟩,
    ⟨S50000x1x1, broadcastInDim S50000x1x1 ![0, 2] bcast_S50000x1_S50000x1x1_0_2 m2⟩] concatenates_S50000x1x1_S50000x1x1_S50000x2x1_d1

def hstack (h1 h2 : (⟨S50000x128, .f32⟩ : BufTy).Contents (Elt F)) : (⟨S50000x2x128, .f32⟩ : BufTy).Contents (Elt F) :=
  concatenate S50000x2x128 1 [⟨S50000x1x128, broadcastInDim S50000x1x128 ![0, 2] bcast_S50000x128_S50000x1x128_0_2 h1⟩,
    ⟨S50000x1x128, broadcastInDim S50000x1x128 ![0, 2] bcast_S50000x128_S50000x1x128_0_2 h2⟩] concatenates_S50000x1x128_S50000x1x128_S50000x2x128_d1

def expShift (ms : (⟨S50000x2x1, .f32⟩ : BufTy).Contents (Elt F)) : (⟨S50000x2x1, .f32⟩ : BufTy).Contents (Elt F) :=
  Host.exp (subf ms
    (broadcastInDim S50000x2x1 ![0, 1, 2] bcast_S50000x1x1_S50000x2x1_0_1_2
      (broadcastInDim S50000x1x1 ![0, 2] bcast_S50000x1_S50000x1x1_0_2
        (maximumf (broadcastInDim S50000x1 ![] bcast_S_S50000x1 (constant S_ .f32 0xFF800000#32))
          (Host.reduce FloatOps.maximumf ms (constant S_ .f32 0xFF800000#32) reducesTo_S50000x2x1_S50000x1_d1 h_S_)))))

def softmax (ms : (⟨S50000x2x1, .f32⟩ : BufTy).Contents (Elt F)) : (⟨S50000x2x1, .f32⟩ : BufTy).Contents (Elt F) :=
  Host.divf (expShift ms)
    (broadcastInDim S50000x2x1 ![0, 1, 2] bcast_S50000x1x1_S50000x2x1_0_1_2
      (broadcastInDim S50000x1x1 ![0, 2] bcast_S50000x1_S50000x1x1_0_2
        (Host.reduceAdd (expShift ms) (constant S_ .f32 0x00000000#32) reducesTo_S50000x2x1_S50000x1_d1 h_S_)))

def comb (h1 h2 : (⟨S50000x128, .f32⟩ : BufTy).Contents (Elt F)) (m1 m2 : (⟨S50000x1, .f32⟩ : BufTy).Contents (Elt F)) : (⟨S50000x128, .f32⟩ : BufTy).Contents (Elt F) :=
  Host.reduceAdd (mulf (broadcastInDim S50000x2x128 ![0, 1, 2] bcast_S50000x2x1_S50000x2x128_0_1_2 (softmax (mstack m1 m2))) (hstack h1 h2))
    (constant S_ .f32 0x00000000#32) reducesTo_S50000x2x128_S50000x128_d1 h_S_

def stack (a b : (⟨S50000x128, .f32⟩ : BufTy).Contents (Elt F)) : (⟨S2x50000x128, .f32⟩ : BufTy).Contents (Elt F) :=
  concatenate S2x50000x128 0 [⟨S1x50000x128, broadcastInDim S1x50000x128 ![1, 2] bcast_S50000x128_S1x50000x128_1_2 a⟩,
    ⟨S1x50000x128, broadcastInDim S1x50000x128 ![1, 2] bcast_S50000x128_S1x50000x128_1_2 b⟩]
    concatenates_S1x50000x128_S1x50000x128_S2x50000x128_d0

def esum (xs : (⟨S50000x128, .f32⟩ : BufTy).Contents (Elt F)) (we : (⟨S128x128, .f32⟩ : BufTy).Contents (Elt F)) (ht : (⟨S50000x128, .f32⟩ : BufTy).Contents (Elt F))
    (src dst : (⟨S640000, .i32⟩ : BufTy).Contents (Elt F)) : (⟨S50000x128, .f32⟩ : BufTy).Contents (Elt F) :=
  hsum (take (proj xs we) src) (att (take (proj xs we) src) (take ht dst)) dst
def emean (xs : (⟨S50000x128, .f32⟩ : BufTy).Contents (Elt F)) (we : (⟨S128x128, .f32⟩ : BufTy).Contents (Elt F)) (ht : (⟨S50000x128, .f32⟩ : BufTy).Contents (Elt F))
    (src dst : (⟨S640000, .i32⟩ : BufTy).Contents (Elt F)) : (⟨S50000x1, .f32⟩ : BufTy).Contents (Elt F) :=
  mean (att (take (proj xs we) src) (take ht dst)) dst

-- the reference's result as one function of its eighteen arguments: two projections with bias, four edge types' sums and mean weights, two softmax-weighted combinations, stacked
def whole (x0 x1 : (⟨S50000x128, .f32⟩ : BufTy).Contents (Elt F)) (x2 x3 x4 x5 x6 x7 x8 x9 : (⟨S640000, .i32⟩ : BufTy).Contents (Elt F))
    (x10 x11 x12 x13 x14 : (⟨S128x128, .f32⟩ : BufTy).Contents (Elt F)) (x15 : (⟨S128, .f32⟩ : BufTy).Contents (Elt F)) (x16 : (⟨S128x128, .f32⟩ : BufTy).Contents (Elt F)) (x17 : (⟨S128, .f32⟩ : BufTy).Contents (Elt F)) :
    (⟨S2x50000x128, .f32⟩ : BufTy).Contents (Elt F) :=
  stack
    (comb (esum x1 x10 (projB x0 x14 x15) x2 x3) (esum x1 x11 (projB x0 x14 x15) x4 x5)
      (emean x1 x10 (projB x0 x14 x15) x2 x3) (emean x1 x11 (projB x0 x14 x15) x4 x5))
    (comb (esum x0 x12 (projB x1 x16 x17) x6 x7) (esum x0 x13 (projB x1 x16 x17) x8 x9)
      (emean x0 x12 (projB x1 x16 x17) x6 x7) (emean x0 x13 (projB x1 x16 x17) x8 x9))

end Cert.ReferenceIdeal.Spec

end
-- ==== Proof.LibRowGatherScatter.lean ====
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by

  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl

  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  ·
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  ·
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

-- entry (i, k) of rows scatter-added through a column of indices: the operand's entry plus the sum of entry k over the rows sent to i
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1

  rw [Finset.sum_filter, sum_idx2]
  refine Finset.sum_congr rfl fun e _ => ?_
  by_cases he : (idx (ix2 e (0 : Fin 1))).toInt = (i.val : Int)
  ·
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  ·
    rw [if_neg he]
    refine Finset.sum_eq_zero fun k' _ => ?_
    rw [if_neg fun h => he ((resultIdx_rows_iff d huw hiw hsd hivd idx e k' i k).1 h).1]

end Idealize.ShloMosaic.RowOps

end
-- ==== Proof.AggBridge.lean ====
import proofs.«412146_j64725157151125_3_alg».proof.Proof.KISpec
import proofs.«412146_j64725157151125_3_alg».proof.Proof.RefSpec
import proofs.«412146_j64725157151125_3_alg».proof.Proof.LibRowGatherScatter
import Idealize.ShloMosaic.Lib.IdealHost
import Idealize.ShloMosaic.Lib.ValueLayout
import Idealize.ShloMosaic.Lib.Pipeline.Value

noncomputable section

namespace Cert.Bridge

open Idealize.ShloMosaic Idealize.ShloMosaic.ValueIdx Idealize.ShloMosaic.RowOps

abbrev Tbl : Type := (⟨Cert.KernelIdeal.S50000x128, .f32⟩ : BufTy).Contents (Elt Ideal)
abbrev IdxV : Type := (⟨Cert.KernelIdeal.S640000, .i32⟩ : BufTy).Contents (Elt Ideal)

/-- An index that is not negative is not wrapped, so the reference gathers the rows the kernel gathers. -/
theorem take_eq (x : Tbl) (idx : IdxV) (h : ∀ e : Cert.KernelIdeal.S640000.Idx, IntOp.cmpi .sge (idx e) 0#32 = 1#1) :
    Cert.ReferenceIdeal.Spec.take (F := Ideal) x idx = Cert.KernelIdeal.Spec.take (F := Ideal) x idx := by
  have hw : Cert.ReferenceIdeal.Spec.wrap (F := Ideal) idx = idx := funext fun e => by
    have hc : IntOp.cmpi .slt (idx e) 0#32 = 0#1 := eq_zero_of_ne_one fun h1 => by
      have := IntOp.cmpi_sge.1 (h e); have := IntOp.cmpi_slt.1 h1; omega
    unfold Cert.ReferenceIdeal.Spec.wrap
    rw [select_apply]
    show Scalar.select (IntOp.cmpi .slt (idx e) 0#32) _ _ = _
    rw [hc, select_zero]
  unfold Cert.ReferenceIdeal.Spec.take
  rw [hw]; rfl

/-- Rows scatter-added into zeros through a column of indices: entry `(i, k)` sums entry `k` of the rows sent to `i`. -/
theorem scatter0_apply {N C : Nat} (d : ScatterDims ⟨2, ![N, C]⟩ ⟨2, ![640000, 1]⟩ ⟨2, ![640000, C]⟩)
    (huw : d.updateWindowDims = [1]) (hiw : d.insertedWindowDims = [0]) (hsd : d.scatterDimsToOperandDims = [0]) (hivd : d.indexVectorDim = 1)
    (h0 : (⟨0, ![]⟩ : Shape).BroadcastsInDim ⟨2, ![N, C]⟩ ![]) (hc : (⟨1, ![640000]⟩ : Shape).BroadcastsInDim ⟨2, ![640000, 1]⟩ ![0])
    (dst : IdxV) (upd : (⟨2, ![640000, C]⟩ : Shape).Idx → EReal) (i : Fin N) (k : Fin C) :
    Ideal.hostScatterAdd d (broadcastInDim ⟨2, ![N, C]⟩ ![] h0 (constant (F := Ideal) ⟨0, ![]⟩ .f32 0x00000000#32))
        (broadcastInDim ⟨2, ![640000, 1]⟩ ![0] hc dst) upd (ix2 i k)
      = ∑ e : Fin 640000, if (dst (ix1 e)).toInt = (i.val : Int) then upd (ix2 e k) else 0 := by
  rw [scatterAdd_rows_apply d huw hiw hsd hivd, broadcastInDim_scalar_apply, constant_apply, Ideal.ofBits_zero_f32, zero_add]
  refine Finset.sum_congr rfl fun e _ => ?_
  rw [show broadcastInDim ⟨2, ![640000, 1]⟩ ![0] hc dst (ix2 e (0 : Fin 1)) = dst (ix1 e) from
    broadcastInDim_apply _ _ _ _ _ fun a => match a with | ⟨0, _⟩ => rfl]

/-- At the exact reals the host's scatter-add is the exact sum. -/
theorem scatterAdd_ideal {s si u : Shape} {w : Nat} (d : ScatterDims s si u) (x : FVec Ideal s .f32) (idx : IVec si w) (upd : FVec Ideal u .f32) :
    Host.scatterAdd d x idx upd = Ideal.hostScatterAdd d x idx upd := rfl

theorem att_eq (x y : (⟨Cert.KernelIdeal.S640000x128, .f32⟩ : BufTy).Contents (Elt Ideal)) :
    Cert.ReferenceIdeal.Spec.att (F := Ideal) x y = Cert.KernelIdeal.Spec.att (F := Ideal) x y := rfl

/-- Off the concatenation axis an index of a piece and of the whole have the same coordinates. -/
theorem off_axis {n n' n'' : Nat} (e : Fin n) (k : Fin n') (k' : Fin n'') (b : Fin 2) (hb : b.cast rfl ≠ (1 : Fin 2)) :
    ((ix2 e k) b).val = ((ix2 e k') (b.cast rfl)).val :=
  match b with
  | ⟨0, _⟩ => rfl
  | ⟨1, _⟩ => absurd rfl hb

section Assemble
variable (hr ht : Tbl) (src dst : IdxV)
  (hs : ∀ e : Cert.KernelIdeal.S640000.Idx, IntOp.cmpi .sge (src e) 0#32 = 1#1)
  (hd : ∀ e : Cert.KernelIdeal.S640000.Idx, IntOp.cmpi .sge (dst e) 0#32 = 1#1)
include hs hd

theorem hsum_eq :
    Cert.KernelIdeal.Spec.hsum (F := Ideal) (Cert.KernelIdeal.Spec.agg hr ht src dst)
      = Cert.ReferenceIdeal.Spec.hsum (Cert.ReferenceIdeal.Spec.take hr src)
          (Cert.ReferenceIdeal.Spec.att (Cert.ReferenceIdeal.Spec.take hr src) (Cert.ReferenceIdeal.Spec.take ht dst)) dst := by
  rw [take_eq hr src hs, take_eq ht dst hd, att_eq]
  funext idx
  obtain ⟨i, j, rfl⟩ : ∃ i j, idx = ix2 i j := ⟨idx 0, idx 1, eq_ix2 idx⟩
  unfold Cert.KernelIdeal.Spec.hsum Cert.KernelIdeal.Spec.agg Cert.KernelIdeal.Spec.seg Cert.ReferenceIdeal.Spec.hsum
  rw [slice2_axis1_apply 0 _ Cert.KernelIdeal.Facts₀.slices_S50000x130_S50000x128_0_0 i j ⟨j.val, Nat.lt_of_lt_of_le j.isLt (by decide)⟩ (Nat.zero_add _).symm, scatterAdd_ideal, scatterAdd_ideal,
    scatter0_apply Cert.KernelIdeal.scatter_S50000x130_S640000x1_S640000x130_1_0_0_1 rfl rfl rfl rfl, scatter0_apply Cert.ReferenceIdeal.scatter_S50000x128_S640000x1_S640000x128_1_0_0_1 rfl rfl rfl rfl]
  refine Finset.sum_congr rfl fun e _ => if_congr Iff.rfl ?_ rfl
  unfold Cert.KernelIdeal.Spec.payload
  exact concatenate_apply_piece (t := Cert.KernelIdeal.S640000x130) (1 : Fin 2) _ _ _ 0 (by show (0 : Nat) < 3; decide) Cert.KernelIdeal.S640000x128 _ rfl rfl 0 rfl (ix2 e j) (off_axis e j _) (Nat.zero_add _)

/-- Column 128 of the aggregate is the sum of the weights. -/
theorem col128_eq :
    extractStridedSlice Cert.KernelIdeal.S50000x1 ![0, 128] (Cert.KernelIdeal.Spec.agg (F := Ideal) hr ht src dst) Cert.KernelIdeal.Facts₀.slices_S50000x130_S50000x1_0_128
      = Cert.ReferenceIdeal.Spec.asum (Cert.ReferenceIdeal.Spec.att (Cert.ReferenceIdeal.Spec.take hr src) (Cert.ReferenceIdeal.Spec.take ht dst)) dst := by
  rw [take_eq hr src hs, take_eq ht dst hd, att_eq]
  funext idx
  obtain ⟨i, u, rfl⟩ : ∃ i u, idx = ix2 i u := ⟨idx 0, idx 1, eq_ix2 idx⟩
  obtain rfl : u = 0 := Subsingleton.elim _ _
  unfold Cert.KernelIdeal.Spec.agg Cert.KernelIdeal.Spec.seg Cert.ReferenceIdeal.Spec.asum
  rw [slice2_axis1_apply 128 _ Cert.KernelIdeal.Facts₀.slices_S50000x130_S50000x1_0_128 i 0 ⟨128, by decide⟩ rfl, scatterAdd_ideal, scatterAdd_ideal,
    scatter0_apply Cert.KernelIdeal.scatter_S50000x130_S640000x1_S640000x130_1_0_0_1 rfl rfl rfl rfl, scatter0_apply Cert.ReferenceIdeal.scatter_S50000x1_S640000x1_S640000x1_1_0_0_1 rfl rfl rfl rfl]
  refine Finset.sum_congr rfl fun e _ => if_congr Iff.rfl ?_ rfl
  unfold Cert.KernelIdeal.Spec.payload
  exact concatenate_apply_piece (t := Cert.KernelIdeal.S640000x130) (1 : Fin 2) _ _ _ 1 (by show (1 : Nat) < 3; decide) Cert.KernelIdeal.S640000x1 _ rfl rfl 128 rfl (ix2 e (0 : Fin 1)) (off_axis e (0 : Fin 1) _) rfl

omit hs in
/-- Column 129 of the aggregate is the count. -/
theorem col129_eq :
    extractStridedSlice Cert.KernelIdeal.S50000x1 ![0, 129] (Cert.KernelIdeal.Spec.agg (F := Ideal) hr ht src dst) Cert.KernelIdeal.Facts₀.slices_S50000x130_S50000x1_0_129
      = Cert.ReferenceIdeal.Spec.cnt dst := by
  funext idx
  obtain ⟨i, u, rfl⟩ : ∃ i u, idx = ix2 i u := ⟨idx 0, idx 1, eq_ix2 idx⟩
  obtain rfl : u = 0 := Subsingleton.elim _ _
  unfold Cert.KernelIdeal.Spec.agg Cert.KernelIdeal.Spec.seg Cert.ReferenceIdeal.Spec.cnt
  rw [slice2_axis1_apply 129 _ Cert.KernelIdeal.Facts₀.slices_S50000x130_S50000x1_0_129 i 0 ⟨129, by decide⟩ rfl, scatterAdd_ideal, scatterAdd_ideal,
    scatter0_apply Cert.KernelIdeal.scatter_S50000x130_S640000x1_S640000x130_1_0_0_1 rfl rfl rfl rfl, scatter0_apply Cert.ReferenceIdeal.scatter_S50000x1_S640000x1_S640000x1_1_0_0_1 rfl rfl rfl rfl]
  refine Finset.sum_congr rfl fun e _ => if_congr Iff.rfl ?_ rfl
  unfold Cert.KernelIdeal.Spec.payload
  exact concatenate_apply_piece (t := Cert.KernelIdeal.S640000x130) (1 : Fin 2) _ _ _ 2 (by show (2 : Nat) < 3; decide) Cert.KernelIdeal.S640000x1 _ rfl rfl 129 rfl (ix2 e (0 : Fin 1)) (off_axis e (0 : Fin 1) _) rfl

theorem mean_eq :
    Cert.KernelIdeal.Spec.mean (F := Ideal) (Cert.KernelIdeal.Spec.agg hr ht src dst)
      = Cert.ReferenceIdeal.Spec.mean
          (Cert.ReferenceIdeal.Spec.att (Cert.ReferenceIdeal.Spec.take hr src) (Cert.ReferenceIdeal.Spec.take ht dst)) dst := by
  unfold Cert.KernelIdeal.Spec.mean Cert.ReferenceIdeal.Spec.mean
  rw [col128_eq hr ht src dst hs hd, col129_eq hr ht src dst hd]

end Assemble

end Cert.Bridge

end
-- ==== Proof.RefRead.lean ====
import proofs.«412146_j64725157151125_3_alg».proof.Proof.RefSpec
import proofs.«412146_j64725157151125_3_alg».proof.Proof.MathSpec
import Idealize.ShloMosaic.Lib.Pipeline.Value
import Idealize.ShloMosaic.Lib.ValueIdx
import Idealize.ShloMosaic.Lib.ValueLayout
import Idealize.ShloMosaic.Lib.StackMember
import Idealize.ShloMosaic.Lib.IdealHost
import Idealize.ShloMosaic.PureOps.Ideal.Laws

noncomputable section

namespace Cert.ReferenceIdeal.Spec

open Cert.ReferenceIdeal Cert.ReferenceIdeal.Facts₀ Cert.ReferenceIdeal.Facts Idealize.ShloMosaic Idealize.ShloMosaic.TcCoe
open Idealize.ShloMosaic.ValueIdx
open scoped BigOperators

theorem proj_apply (x : (⟨S50000x128, .f32⟩ : BufTy).Contents (Elt Ideal)) (w : (⟨S128x128, .f32⟩ : BufTy).Contents (Elt Ideal))
    (r : Fin 50000) (j : Fin 128) :
    proj (F := Ideal) x w (ix2 r j) = ∑ k : Fin 128, x (ix2 r k) * w (ix2 j k) :=
  (StackMember.dotGeneral_plain_apply _ x _ r j).trans (Finset.sum_congr rfl fun k _ => by rw [transpose_ix2_apply])

theorem bias_apply (b : (⟨S128, .f32⟩ : BufTy).Contents (Elt Ideal)) (r : Fin 50000) (j : Fin 128) :
    broadcastInDim S50000x128 ![0, 1] bcast_S1x128_S50000x128_0_1 (broadcastInDim S1x128 ![1] bcast_S128_S1x128_1 b) (ix2 r j)
      = b (ix1 j) := by
  rw [broadcastInDim_apply _ bcast_S1x128_S50000x128_0_1 _ (ix2 r j) (ix2 (0 : Fin 1) j) (fun a => match a with
    | ⟨0, _⟩ => (if_pos rfl).symm
    | ⟨1, _⟩ => (if_neg (by decide +revert)).symm)]
  exact broadcastInDim_apply _ bcast_S128_S1x128_1 b (ix2 (0 : Fin 1) j) (ix1 j) (fun a => match a with
    | ⟨0, _⟩ => (if_neg (by decide +revert)).symm)

theorem projB_apply (x : (⟨S50000x128, .f32⟩ : BufTy).Contents (Elt Ideal)) (w : (⟨S128x128, .f32⟩ : BufTy).Contents (Elt Ideal))
    (b : (⟨S128, .f32⟩ : BufTy).Contents (Elt Ideal)) (r : Fin 50000) (j : Fin 128) :
    projB (F := Ideal) x w b (ix2 r j) = (∑ k : Fin 128, x (ix2 r k) * w (ix2 j k)) + b (ix1 j) := by
  unfold projB
  rw [addf_apply, proj_apply, bias_apply]

section
variable {α : Type} {D : Nat} (a b : (⟨2, ![50000, D]⟩ : Shape).Idx → α)
  {ha hb : (⟨2, ![50000, D]⟩ : Shape).BroadcastsInDim ⟨3, ![50000, 1, D]⟩ ![0, 2]}
  {hc : Shape.Concatenates [⟨3, ![50000, 1, D]⟩, ⟨3, ![50000, 1, D]⟩] ⟨3, ![50000, 2, D]⟩ 1} (n : Fin 50000) (d : Fin D)

theorem mid_apply : broadcastInDim ⟨3, ![50000, 1, D]⟩ ![0, 2] ha a (ix3 n (0 : Fin 1) d) = a (ix2 n d) :=
  broadcastInDim_apply _ ha a (ix3 n (0 : Fin 1) d) (ix2 n d) (fun c => match c with
    | ⟨0, _⟩ => (if_neg (by decide : ¬(50000 : ℕ) = 1)).symm
    | ⟨1, _⟩ => by have := d.isLt; show d.val = if D = 1 then 0 else d.val; split <;> omega)

theorem stack_zero : concatenate ⟨3, ![50000, 2, D]⟩ 1 [⟨_, broadcastInDim ⟨3, ![50000, 1, D]⟩ ![0, 2] ha a⟩, ⟨_, broadcastInDim ⟨3, ![50000, 1, D]⟩ ![0, 2] hb b⟩] hc (ix3 n (0 : Fin 2) d)
    = a (ix2 n d) := by
  rw [concatenate_pair_apply_left (t := ⟨3, ![50000, 2, D]⟩) (s₁ := ⟨3, ![50000, 1, D]⟩) (s₂ := ⟨3, ![50000, 1, D]⟩) (1 : Fin 3) _ _ hc (ix3 n (0 : Fin 2) d) rfl (ix3 n (0 : Fin 1) d) (fun c => match c with
      | ⟨0, _⟩ => rfl
      | ⟨1, _⟩ => rfl
      | ⟨2, _⟩ => rfl)]
  exact mid_apply a n d

theorem stack_one : concatenate ⟨3, ![50000, 2, D]⟩ 1 [⟨_, broadcastInDim ⟨3, ![50000, 1, D]⟩ ![0, 2] ha a⟩, ⟨_, broadcastInDim ⟨3, ![50000, 1, D]⟩ ![0, 2] hb b⟩] hc (ix3 n (1 : Fin 2) d)
    = b (ix2 n d) := by
  rw [concatenate_pair_apply_right (t := ⟨3, ![50000, 2, D]⟩) (s₁ := ⟨3, ![50000, 1, D]⟩) (s₂ := ⟨3, ![50000, 1, D]⟩) (1 : Fin 3) _ _ hc (ix3 n (1 : Fin 2) d) rfl rfl (ix3 n (0 : Fin 1) d) (fun c h => match c, h with
      | ⟨0, _⟩, _ => rfl
      | ⟨1, _⟩, h => absurd rfl h
      | ⟨2, _⟩, _ => rfl) rfl]
  exact mid_apply b n d

end

theorem ofBits_neg_inf : Ideal.ofBits .f32 0xFF800000#32 = ⊥ := by simp [Ideal.ofBits, Ideal.ieee]

theorem hostExp_apply {s : Shape} {φ : FTy} (x : FVec Ideal s φ) (i : s.Idx) : Host.exp x i = Ideal.exp (x i) := rfl

theorem sumMid_apply {D : Nat} (y : FVec Ideal ⟨3, ![50000, 2, D]⟩ .f32) {h : (⟨3, ![50000, 2, D]⟩ : Shape).ReducesTo [1] ⟨2, ![50000, D]⟩}
    (hR : (⟨3, ![50000, 2, D]⟩ : Shape).Reduces [1] ⟨2, ![50000, D]⟩) (n : Fin 50000) (d : Fin D) :
    Host.reduceAdd (F := Ideal) (φ := .f32) y (constant S_ .f32 0x00000000#32) h h_S_ (ix2 n d) = y (ix3 n (0 : Fin 2) d) + y (ix3 n (1 : Fin 2) d) := by
  show Ideal.hostReduceAdd h y (Ideal.ofBits .f32 0x00000000#32) (ix2 n d) = _
  rw [Ideal.hostReduceAdd_single h hR]
  show Ideal.ofBits .f32 0x00000000#32 + ∑ k : Fin 2, y (hR.lift (ix2 n d) k) = _
  rw [Ideal.ofBits_zero_f32, zero_add, Fin.sum_univ_two]
  congr 1 <;> exact congrArg y (funext (fun a => Fin.ext (by match a with | ⟨0, _⟩ => rfl | ⟨1, _⟩ => rfl | ⟨2, _⟩ => rfl)))

theorem maxMid_apply (y : (⟨S50000x2x1, .f32⟩ : BufTy).Contents (Elt Ideal)) (n : Fin 50000) :
    Host.reduce (α := Ideal .f32) (s := S50000x2x1) (FloatOps.maximumf (F := Ideal) (φ := .f32)) y (constant (F := Ideal) S_ .f32 0xFF800000#32) reducesTo_S50000x2x1_S50000x1_d1 h_S_ (ix2 n (0 : Fin 1))
      = max (y (ix3 n (0 : Fin 2) (0 : Fin 1))) (y (ix3 n (1 : Fin 2) (0 : Fin 1))) := by
  have hR : Shape.Reduces S50000x2x1 [1] S50000x1 := by decide
  rw [Host.reduce_eq_fold_single (FloatOps.maximumf (F := Ideal) (φ := .f32)) y _ reducesTo_S50000x2x1_S50000x1_d1 hR h_S_ (ix2 n (0 : Fin 1))]
  show (Finset.univ : Finset (Fin 2)).fold (FloatOps.maximumf (F := Ideal) (φ := .f32)) (Ideal.ofBits .f32 0xFF800000#32)
    (fun k : Fin 2 => y (hR.lift (ix2 n (0 : Fin 1)) k)) = _
  rw [show (Finset.univ : Finset (Fin 2)) = {0, 1} from by decide, Finset.fold_insert (by decide), Finset.fold_singleton,
    ofBits_neg_inf]
  show max (y _) (max (y _) ⊥) = max (y _) (y _)
  rw [max_bot_right]
  congr 1 <;> exact congrArg y (funext (fun a => Fin.ext (by match a with | ⟨0, _⟩ => rfl | ⟨1, _⟩ => rfl | ⟨2, _⟩ => rfl)))

theorem bcastRow_apply (y : (⟨S50000x1x1, .f32⟩ : BufTy).Contents (Elt Ideal)) (n : Fin 50000) (s : Fin 2) :
    broadcastInDim S50000x2x1 ![0, 1, 2] bcast_S50000x1x1_S50000x2x1_0_1_2 y (ix3 n s (0 : Fin 1)) = y (ix3 n (0 : Fin 1) (0 : Fin 1)) :=
  broadcastInDim_apply _ bcast_S50000x1x1_S50000x2x1_0_1_2 y (ix3 n s (0 : Fin 1)) (ix3 n (0 : Fin 1) (0 : Fin 1)) (fun c => match c with
    | ⟨0, _⟩ => (if_neg (by decide +revert)).symm
    | ⟨1, _⟩ => (if_pos rfl).symm
    | ⟨2, _⟩ => (if_pos rfl).symm)

theorem bcastLane_apply (y : (⟨S50000x2x1, .f32⟩ : BufTy).Contents (Elt Ideal)) (n : Fin 50000) (s : Fin 2) (d : Fin 128) :
    broadcastInDim S50000x2x128 ![0, 1, 2] bcast_S50000x2x1_S50000x2x128_0_1_2 y (ix3 n s d) = y (ix3 n s (0 : Fin 1)) :=
  broadcastInDim_apply _ bcast_S50000x2x1_S50000x2x128_0_1_2 y (ix3 n s d) (ix3 n s (0 : Fin 1)) (fun c => match c with
    | ⟨0, _⟩ => (if_neg (by decide +revert)).symm
    | ⟨1, _⟩ => (if_neg (by decide +revert)).symm
    | ⟨2, _⟩ => (if_pos rfl).symm)

theorem expShift_apply (ms : (⟨S50000x2x1, .f32⟩ : BufTy).Contents (Elt Ideal)) (n : Fin 50000) (s : Fin 2) :
    expShift (F := Ideal) ms (ix3 n s (0 : Fin 1))
      = Ideal.exp (ms (ix3 n s (0 : Fin 1)) - max (ms (ix3 n (0 : Fin 2) (0 : Fin 1))) (ms (ix3 n (1 : Fin 2) (0 : Fin 1)))) := by
  unfold expShift
  rw [hostExp_apply, subf_apply, bcastRow_apply, mid_apply, maximumf_apply, maxMid_apply, broadcastInDim_scalar_apply,
    constant_apply, ofBits_neg_inf, max_bot_left]

theorem softmax_apply (ms : (⟨S50000x2x1, .f32⟩ : BufTy).Contents (Elt Ideal)) (n : Fin 50000) (s : Fin 2) :
    softmax (F := Ideal) ms (ix3 n s (0 : Fin 1))
      = Ideal.div (expShift (F := Ideal) ms (ix3 n s (0 : Fin 1)))
          (expShift (F := Ideal) ms (ix3 n (0 : Fin 2) (0 : Fin 1)) + expShift (F := Ideal) ms (ix3 n (1 : Fin 2) (0 : Fin 1))) := by
  unfold softmax
  rw [hostDivf_apply, bcastRow_apply, mid_apply, sumMid_apply (D := 1) _ (by decide)]

-- the combination at (n, d): the two-way softmax of the two mean weights at n, weighing the two sums at (n, d)
theorem comb_apply (h1 h2 : (⟨S50000x128, .f32⟩ : BufTy).Contents (Elt Ideal)) (m1 m2 : (⟨S50000x1, .f32⟩ : BufTy).Contents (Elt Ideal)) (n : Fin 50000) (d : Fin 128) :
    comb (F := Ideal) h1 h2 m1 m2 (ix2 n d)
      = Cert.Math.comb2 (h1 (ix2 n d)) (h2 (ix2 n d)) (m1 (ix2 n (0 : Fin 1))) (m2 (ix2 n (0 : Fin 1))) := by
  unfold comb mstack hstack
  rw [sumMid_apply (D := 128) _ (by decide), mulf_apply, mulf_apply, bcastLane_apply, bcastLane_apply]
  simp only [softmax_apply, expShift_apply]
  rw [stack_zero, stack_one, stack_zero, stack_one]
  rfl

end Cert.ReferenceIdeal.Spec

end
-- ==== Proof.Glue.lean ====
import proofs.«412146_j64725157151125_3_alg».proof.Proof.RefRead
import proofs.«412146_j64725157151125_3_alg».proof.Proof.RefSpec
import proofs.«412146_j64725157151125_3_alg».proof.Proof.MathSpec
import Idealize.ShloMosaic.Lib.Pipeline.Value
import Idealize.ShloMosaic.Lib.ValueIdx
import Idealize.ShloMosaic.Lib.ValueLayout

noncomputable section

namespace Cert.Glue

open Cert.ReferenceIdeal Cert.ReferenceIdeal.Facts₀ Cert.ReferenceIdeal.Facts Idealize.ShloMosaic Idealize.ShloMosaic.TcCoe
open Idealize.ShloMosaic.ValueIdx
open scoped BigOperators

-- an array that is, entry by entry, the product of x with the transposed weights is the reference's projection
theorem proj_of_apply (x out : (⟨S50000x128, .f32⟩ : BufTy).Contents (Elt Ideal)) (W wT : (⟨S128x128, .f32⟩ : BufTy).Contents (Elt Ideal))
    {ht : S128x128.Transposes [1, 0] S128x128} (hT : wT = transpose S128x128 [1, 0] W ht)
    (h : ∀ (r : Fin 50000) (j : Fin 128), out (ix2 r j) = ∑ k : Fin 128, x (ix2 r k) * wT (ix2 k j)) :
    out = Cert.ReferenceIdeal.Spec.proj (F := Ideal) x W := by
  funext i
  obtain ⟨r, j, rfl⟩ : ∃ (r : Fin 50000) (j : Fin 128), i = ix2 r j := ⟨i 0, i 1, eq_ix2 i⟩
  rw [h r j, Cert.ReferenceIdeal.Spec.proj_apply]
  refine Finset.sum_congr rfl fun k _ => ?_
  rw [hT, transpose_ix2_apply]

theorem projB_of_apply (x out : (⟨S50000x128, .f32⟩ : BufTy).Contents (Elt Ideal)) (W wT : (⟨S128x128, .f32⟩ : BufTy).Contents (Elt Ideal))
    (b : (⟨S128, .f32⟩ : BufTy).Contents (Elt Ideal)) (bRow : (⟨S1x128, .f32⟩ : BufTy).Contents (Elt Ideal))
    {ht : S128x128.Transposes [1, 0] S128x128} (hT : wT = transpose S128x128 [1, 0] W ht)
    {hc : S128.ShapeCasts S1x128} (hb : bRow = shapeCast S1x128 b hc)
    (h : ∀ (r : Fin 50000) (j : Fin 128), out (ix2 r j) = (∑ k : Fin 128, x (ix2 r k) * wT (ix2 k j)) + bRow (ix2 (0 : Fin 1) j)) :
    out = Cert.ReferenceIdeal.Spec.projB (F := Ideal) x W b := by
  funext i
  obtain ⟨r, j, rfl⟩ : ∃ (r : Fin 50000) (j : Fin 128), i = ix2 r j := ⟨i 0, i 1, eq_ix2 i⟩
  rw [h r j, Cert.ReferenceIdeal.Spec.projB_apply, hb, shapeCast_a_1a_apply]
  congr 1
  refine Finset.sum_congr rfl fun k _ => ?_
  rw [hT, transpose_ix2_apply]

-- an array that is, entry by entry, the two-way softmax combination is the reference's combination
theorem comb_of_apply (h1 h2 out : (⟨S50000x128, .f32⟩ : BufTy).Contents (Elt Ideal)) (m1 m2 : (⟨S50000x1, .f32⟩ : BufTy).Contents (Elt Ideal))
    (h : ∀ (n : Fin 50000) (d : Fin 128), out (ix2 n d)
      = Cert.Math.comb2 (h1 (ix2 n d)) (h2 (ix2 n d)) (m1 (ix2 n (0 : Fin 1))) (m2 (ix2 n (0 : Fin 1)))) :
    out = Cert.ReferenceIdeal.Spec.comb (F := Ideal) h1 h2 m1 m2 := by
  funext i
  obtain ⟨n, d, rfl⟩ : ∃ (n : Fin 50000) (d : Fin 128), i = ix2 n d := ⟨i 0, i 1, eq_ix2 i⟩
  rw [h n d, Cert.ReferenceIdeal.Spec.comb_apply]

end Cert.Glue

end
-- ==== Proof.KIValue.lean ====
import proofs.«412146_j64725157151125_3_alg».proof.Proof.KIFrame
import proofs.«412146_j64725157151125_3_alg».proof.Proof.KIChain
import proofs.«412146_j64725157151125_3_alg».proof.Proof.KIRegionValue0
import proofs.«412146_j64725157151125_3_alg».proof.Proof.KIRegionValue1
import proofs.«412146_j64725157151125_3_alg».proof.Proof.KIRegionValue2
import proofs.«412146_j64725157151125_3_alg».proof.Proof.KIRegionValue3
import proofs.«412146_j64725157151125_3_alg».proof.Proof.AggBridge
import proofs.«412146_j64725157151125_3_alg».proof.Proof.Glue

noncomputable section

namespace Cert.KernelIdeal.Gen

open Idealize.ShloMosaic Idealize.ShloMosaic.TcCoe Idealize.ShloMosaic.ValueIdx Idealize.SL.Sem

variable (m : (ℓ : Loc nD τ sig) → Buf (Elt Ideal) ℓ) (c : Dev nD)

theorem xin0_eq : xin0 (atTc (V1 m)) c = m (c, main_arg1) := V1_main_arg1 m c

theorem xin1_eq : xin1 (atTc (V3 m (outs m))) c = m (c, main_arg0) := V3_main_arg0 m (outs m) c

theorem proj0_5 : outs m 2 main_v4_0 c
    = Cert.ReferenceIdeal.Spec.projB (F := Ideal) (m (c, main_arg1)) (m (c, main_arg16)) (m (c, main_arg17)) := by
  rw [outs_2_v4_0 m c]
  refine Cert.Glue.projB_of_apply _ _ _ (V1 m c main_v0) _ (V1 m c main_v3) (V1_main_v0 m c) (V1_main_v3 m c) fun r j => ?_
  rw [out0_5_apply, xin0_eq]

theorem proj0_6 : outs m 2 main_v4_1 c = Cert.ReferenceIdeal.Spec.proj (F := Ideal) (m (c, main_arg1)) (m (c, main_arg10)) := by
  rw [outs_2_v4_1 m c]
  refine Cert.Glue.proj_of_apply _ _ _ (V1 m c main_v1) (V1_main_v1 m c) fun r j => ?_
  rw [out0_6_apply, xin0_eq]

theorem proj0_7 : outs m 2 main_v4_2 c = Cert.ReferenceIdeal.Spec.proj (F := Ideal) (m (c, main_arg1)) (m (c, main_arg11)) := by
  rw [outs_2_v4_2 m c]
  refine Cert.Glue.proj_of_apply _ _ _ (V1 m c main_v2) (V1_main_v2 m c) fun r j => ?_
  rw [out0_7_apply, xin0_eq]

theorem proj1_5 : outs m 4 main_v9_0 c
    = Cert.ReferenceIdeal.Spec.projB (F := Ideal) (m (c, main_arg0)) (m (c, main_arg14)) (m (c, main_arg15)) := by
  rw [outs_4_v9_0 m c]
  refine Cert.Glue.projB_of_apply _ _ _ (V3 m (outs m) c main_v5) _ (V3 m (outs m) c main_v8) (V3_main_v5 m (outs m) c) (V3_main_v8 m (outs m) c) fun r j => ?_
  rw [out1_5_apply, xin1_eq]

theorem proj1_6 : outs m 4 main_v9_1 c = Cert.ReferenceIdeal.Spec.proj (F := Ideal) (m (c, main_arg0)) (m (c, main_arg12)) := by
  rw [outs_4_v9_1 m c]
  refine Cert.Glue.proj_of_apply _ _ _ (V3 m (outs m) c main_v6) (V3_main_v6 m (outs m) c) fun r j => ?_
  rw [out1_6_apply, xin1_eq]

theorem proj1_7 : outs m 4 main_v9_2 c = Cert.ReferenceIdeal.Spec.proj (F := Ideal) (m (c, main_arg0)) (m (c, main_arg13)) := by
  rw [outs_4_v9_2 m c]
  refine Cert.Glue.proj_of_apply _ _ _ (V3 m (outs m) c main_v7) (V3_main_v7 m (outs m) c) fun r j => ?_
  rw [out1_7_apply, xin1_eq]

theorem comb_first : outs m 29 main_v106 c
    = Cert.ReferenceIdeal.Spec.comb (F := Ideal) (V28 m (outs m) c main_v28) (V28 m (outs m) c main_v52) (V28 m (outs m) c main_v33) (V28 m (outs m) c main_v57) := by
  rw [outs_29_v106 m c]
  exact Cert.Glue.comb_of_apply _ _ _ _ _ (fun n d => out2_4_apply _ c n d)

theorem comb_second : outs m 30 main_v107 c
    = Cert.ReferenceIdeal.Spec.comb (F := Ideal) (V29 m (outs m) c main_v76) (V29 m (outs m) c main_v100) (V29 m (outs m) c main_v81) (V29 m (outs m) c main_v105) := by
  rw [outs_30_v107 m c]
  exact Cert.Glue.comb_of_apply _ _ _ _ _ (fun n d => out3_4_apply _ c n d)

structure NonNeg : Prop where
  h2 : ∀ e, IntOp.cmpi .sge ((m ((c.tc : Thread nD τ).loc main_arg2)) e) 0#32 = 1#1
  h3 : ∀ e, IntOp.cmpi .sge ((m ((c.tc : Thread nD τ).loc main_arg3)) e) 0#32 = 1#1
  h4 : ∀ e, IntOp.cmpi .sge ((m ((c.tc : Thread nD τ).loc main_arg4)) e) 0#32 = 1#1
  h5 : ∀ e, IntOp.cmpi .sge ((m ((c.tc : Thread nD τ).loc main_arg5)) e) 0#32 = 1#1
  h6 : ∀ e, IntOp.cmpi .sge ((m ((c.tc : Thread nD τ).loc main_arg6)) e) 0#32 = 1#1
  h7 : ∀ e, IntOp.cmpi .sge ((m ((c.tc : Thread nD τ).loc main_arg7)) e) 0#32 = 1#1
  h8 : ∀ e, IntOp.cmpi .sge ((m ((c.tc : Thread nD τ).loc main_arg8)) e) 0#32 = 1#1
  h9 : ∀ e, IntOp.cmpi .sge ((m ((c.tc : Thread nD τ).loc main_arg9)) e) 0#32 = 1#1

variable (hn : NonNeg m c)
include hn

/-- Each piece of the result is rewritten to its named function; what is left is the reference's `whole` unfolded. -/
theorem result_eq : V31 m (outs m) c main_v110
    = Cert.ReferenceIdeal.Spec.whole (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [V31_main_v110 m (outs m) c, comb_first m c, comb_second m c, V28_main_v28 m (outs m) c, V28_main_v33 m (outs m) c, V28_main_v52 m (outs m) c, V28_main_v57 m (outs m) c,
    V29_main_v76 m (outs m) c, V29_main_v81 m (outs m) c, V29_main_v100 m (outs m) c, V29_main_v105 m (outs m) c,
    proj0_5 m c, proj0_6 m c, proj0_7 m c, proj1_5 m c, proj1_6 m c, proj1_7 m c,
    Cert.Bridge.hsum_eq _ _ _ _ hn.h2 hn.h3, Cert.Bridge.mean_eq _ _ _ _ hn.h2 hn.h3, Cert.Bridge.hsum_eq _ _ _ _ hn.h4 hn.h5, Cert.Bridge.mean_eq _ _ _ _ hn.h4 hn.h5,
    Cert.Bridge.hsum_eq _ _ _ _ hn.h6 hn.h7, Cert.Bridge.mean_eq _ _ _ _ hn.h6 hn.h7, Cert.Bridge.hsum_eq _ _ _ _ hn.h8 hn.h9, Cert.Bridge.mean_eq _ _ _ _ hn.h8 hn.h9]
  rfl

end Cert.KernelIdeal.Gen

end
-- ==== Proof.RefRun.lean ====
import proofs.«412146_j64725157151125_3_alg».proof.Proof.RefSpec
import Idealize.ShloMosaic.Lib.StableHlo.Run
import Idealize.ShloMosaic.Lib.Pipeline.Frame
import Idealize.ShloMosaic.Lib.Pipeline.Regions

set_option maxHeartbeats 4000000

noncomputable section

namespace Cert.ReferenceIdeal.RefRun

open Cert.ReferenceIdeal Cert.ReferenceIdeal.Facts₀ Cert.ReferenceIdeal.Facts Idealize.ShloMosaic Idealize.ShloMosaic.TcCoe
open Idealize.SL.Sem Idealize.ShloMosaic.StableHlo

variable {F : FTy → Type} [FloatOps F]

def ops0 : List (HloOp τ sig (Elt F)) :=
  [ unary main_arg14 main_v0 (transpose S128x128 [1, 0] · transposes_S128x128_S128x128_1_0),
    binary main_arg0 main_v0 main_v1 (fun l r => Host.dotGeneral dot_S50000x128_S128x128_S50000x128_1_0_0_1_n_n none l r),
    unary main_arg15 main_v2 (broadcastInDim S1x128 ![1] bcast_S128_S1x128_1),
    unary main_v2 main_v3 (broadcastInDim S50000x128 ![0, 1] bcast_S1x128_S50000x128_0_1),
    binary main_v1 main_v3 main_v4 addf,
    unary main_arg16 main_v5 (transpose S128x128 [1, 0] · transposes_S128x128_S128x128_1_0),
    binary main_arg1 main_v5 main_v6 (fun l r => Host.dotGeneral dot_S50000x128_S128x128_S50000x128_1_0_0_1_n_n none l r),
    unary main_arg17 main_v7 (broadcastInDim S1x128 ![1] bcast_S128_S1x128_1),
    unary main_v7 main_v8 (broadcastInDim S50000x128 ![0, 1] bcast_S1x128_S50000x128_0_1),
    binary main_v6 main_v8 main_v9 addf ]

-- one scatter-add stretch, over the references it reads (w x i j h) and writes (y0 … y56); the program has four
section

variable (w y0 : TRef sig ⟨S128x128, .f32⟩)
variable (x h y1 y40 y42 : TRef sig ⟨S50000x128, .f32⟩)
variable (i j y3 y6 y7 y8 y12 y15 y16 y17 : TRef sig ⟨S640000, .i32⟩)
variable (y2 y5 y11 y14 : TRef sig ⟨S_, .i32⟩)
variable (y4 y13 : TRef sig ⟨S640000, .i1⟩)
variable (y9 y18 y41 y45 y51 : TRef sig ⟨S640000x1, .i32⟩)
variable (y10 y19 y20 y23 y27 y37 y38 : TRef sig ⟨S640000x128, .f32⟩)
variable (y21 y24 y28 y32 y39 y43 y47 y49 y53 : TRef sig ⟨S_, .f32⟩)
variable (y22 y25 y26 y29 y30 y31 y33 y34 y35 : TRef sig ⟨S640000, .f32⟩)
variable (y36 y48 : TRef sig ⟨S640000x1, .f32⟩)
variable (y44 y46 y50 y52 y54 y55 y56 : TRef sig ⟨S50000x1, .f32⟩)

-- one edge type's operations over any references of the right types: the source rows projected and gathered by the edges' endpoints, a cosine weight per edge, then the weighted rows, the weights and the count summed per destination node, and the mean weight
def sblock : List (HloOp τ sig (Elt F)) :=
  [ w.unary y0 (transpose S128x128 [1, 0] · transposes_S128x128_S128x128_1_0),
    x.binary y0 y1 (fun l r => Host.dotGeneral dot_S50000x128_S128x128_S50000x128_1_0_0_1_n_n none l r),
    y2.nullary (constantI S_ 32 0#32),
    y2.unary y3 (broadcastInDim S640000 ![] bcast_S_S640000),
    i.binary y3 y4 (cmpi .slt),
    y5.nullary (constantI S_ 32 50000#32),
    y5.unary y6 (broadcastInDim S640000 ![] bcast_S_S640000),
    i.binary y6 y7 addi,
    y4.ternary y7 i y8 select,
    y8.unary y9 (broadcastInDim S640000x1 ![0] bcast_S640000_S640000x1_0),
    y1.binary y9 y10 (fun x i => Host.gather gather_S50000x128_S640000x1_S640000x128_1_0_n_n_0_1_1128 x i),
    y11.nullary (constantI S_ 32 0#32),
    y11.unary y12 (broadcastInDim S640000 ![] bcast_S_S640000),
    j.binary y12 y13 (cmpi .slt),
    y14.nullary (constantI S_ 32 50000#32),
    y14.unary y15 (broadcastInDim S640000 ![] bcast_S_S640000),
    j.binary y15 y16 addi,
    y13.ternary y16 j y17 select,
    y17.unary y18 (broadcastInDim S640000x1 ![0] bcast_S640000_S640000x1_0),
    h.binary y18 y19 (fun x i => Host.gather gather_S50000x128_S640000x1_S640000x128_1_0_n_n_0_1_1128 x i),
    y10.binary y19 y20 mulf,
    y21.nullary (constant S_ .f32 0x00000000#32),
    y20.binary y21 y22 (fun x v => Host.reduceAdd x v reducesTo_S640000x128_S640000_d1 h_S_),
    y10.binary y10 y23 mulf,
    y24.nullary (constant S_ .f32 0x00000000#32),
    y23.binary y24 y25 (fun x v => Host.reduceAdd x v reducesTo_S640000x128_S640000_d1 h_S_),
    y25.unary y26 Host.sqrt,
    y19.binary y19 y27 mulf,
    y28.nullary (constant S_ .f32 0x00000000#32),
    y27.binary y28 y29 (fun x v => Host.reduceAdd x v reducesTo_S640000x128_S640000_d1 h_S_),
    y29.unary y30 Host.sqrt,
    y26.binary y30 y31 mulf,
    y32.nullary (constant S_ .f32 0x322BCC77#32),
    y32.unary y33 (broadcastInDim S640000 ![] bcast_S_S640000),
    y31.binary y33 y34 maximumf,
    y22.binary y34 y35 Host.divf,
    y35.unary y36 (broadcastInDim S640000x1 ![0] bcast_S640000_S640000x1_0),
    y36.unary y37 (broadcastInDim S640000x128 ![0, 1] bcast_S640000x1_S640000x128_0_1),
    y37.binary y10 y38 mulf,
    y39.nullary (constant S_ .f32 0x00000000#32),
    y39.unary y40 (broadcastInDim S50000x128 ![] bcast_S_S50000x128),
    j.unary y41 (broadcastInDim S640000x1 ![0] bcast_S640000_S640000x1_0),
    y40.ternary y41 y38 y42 (fun x i u => Host.scatterAdd scatter_S50000x128_S640000x1_S640000x128_1_0_0_1 x i u),
    y43.nullary (constant S_ .f32 0x00000000#32),
    y43.unary y44 (broadcastInDim S50000x1 ![] bcast_S_S50000x1),
    j.unary y45 (broadcastInDim S640000x1 ![0] bcast_S640000_S640000x1_0),
    y44.ternary y45 y36 y46 (fun x i u => Host.scatterAdd scatter_S50000x1_S640000x1_S640000x1_1_0_0_1 x i u),
    y47.nullary (constant S_ .f32 0x3F800000#32),
    y47.unary y48 (broadcastInDim S640000x1 ![] bcast_S_S640000x1),
    y49.nullary (constant S_ .f32 0x00000000#32),
    y49.unary y50 (broadcastInDim S50000x1 ![] bcast_S_S50000x1),
    j.unary y51 (broadcastInDim S640000x1 ![0] bcast_S640000_S640000x1_0),
    y50.ternary y51 y48 y52 (fun x i u => Host.scatterAdd scatter_S50000x1_S640000x1_S640000x1_1_0_0_1 x i u),
    y53.nullary (constant S_ .f32 0x3F800000#32),
    y53.unary y54 (broadcastInDim S50000x1 ![] bcast_S_S50000x1),
    y52.binary y54 y55 maximumf,
    y46.binary y55 y56 Host.divf ]

end

def ops1 : List (HloOp τ sig (Elt F)) :=
  sblock (.of main_arg10) (.of main_v10) (.of main_arg1) (.of main_v4) (.of main_v11) (.of main_v37) (.of main_v39) (.of main_arg2) (.of main_arg3) (.of main_v12) (.of main_v14) (.of main_v15) (.of main_v16) (.of main_v19) (.of main_v21) (.of main_v22) (.of main_v23) (.of main_c) (.of main_c_0) (.of main_c_1) (.of main_c_2) (.of main_v13) (.of main_v20) (.of main_v17) (.of main_v24) (.of main_v38) (.of main_v41) (.of main_v45) (.of main_v18) (.of main_v25) (.of main_v26) (.of main_call0_v0) (.of main_call1_v0) (.of main_v35) (.of main_v36) (.of main_cst) (.of main_call0_cst) (.of main_call1_cst) (.of main_cst_3) (.of main_cst_4) (.of main_cst_5) (.of main_cst_6) (.of main_cst_7) (.of main_cst_8) (.of main_v27) (.of main_call0_v1) (.of main_v28) (.of main_call1_v1) (.of main_v29) (.of main_v30) (.of main_v31) (.of main_v32) (.of main_v33) (.of main_v34) (.of main_v43) (.of main_v40) (.of main_v42) (.of main_v44) (.of main_v46) (.of main_v47) (.of main_v48) (.of main_v49)

def ops2 : List (HloOp τ sig (Elt F)) :=
  sblock (.of main_arg11) (.of main_v50) (.of main_arg1) (.of main_v4) (.of main_v51) (.of main_v77) (.of main_v79) (.of main_arg4) (.of main_arg5) (.of main_v52) (.of main_v54) (.of main_v55) (.of main_v56) (.of main_v59) (.of main_v61) (.of main_v62) (.of main_v63) (.of main_c_9) (.of main_c_10) (.of main_c_11) (.of main_c_12) (.of main_v53) (.of main_v60) (.of main_v57) (.of main_v64) (.of main_v78) (.of main_v81) (.of main_v85) (.of main_v58) (.of main_v65) (.of main_v66) (.of main_call2_v0) (.of main_call3_v0) (.of main_v75) (.of main_v76) (.of main_cst_13) (.of main_call2_cst) (.of main_call3_cst) (.of main_cst_14) (.of main_cst_15) (.of main_cst_16) (.of main_cst_17) (.of main_cst_18) (.of main_cst_19) (.of main_v67) (.of main_call2_v1) (.of main_v68) (.of main_call3_v1) (.of main_v69) (.of main_v70) (.of main_v71) (.of main_v72) (.of main_v73) (.of main_v74) (.of main_v83) (.of main_v80) (.of main_v82) (.of main_v84) (.of main_v86) (.of main_v87) (.of main_v88) (.of main_v89)

def ops3 : List (HloOp τ sig (Elt F)) :=
  sblock (.of main_arg12) (.of main_v90) (.of main_arg0) (.of main_v9) (.of main_v91) (.of main_v117) (.of main_v119) (.of main_arg6) (.of main_arg7) (.of main_v92) (.of main_v94) (.of main_v95) (.of main_v96) (.of main_v99) (.of main_v101) (.of main_v102) (.of main_v103) (.of main_c_20) (.of main_c_21) (.of main_c_22) (.of main_c_23) (.of main_v93) (.of main_v100) (.of main_v97) (.of main_v104) (.of main_v118) (.of main_v121) (.of main_v125) (.of main_v98) (.of main_v105) (.of main_v106) (.of main_call4_v0) (.of main_call5_v0) (.of main_v115) (.of main_v116) (.of main_cst_24) (.of main_call4_cst) (.of main_call5_cst) (.of main_cst_25) (.of main_cst_26) (.of main_cst_27) (.of main_cst_28) (.of main_cst_29) (.of main_cst_30) (.of main_v107) (.of main_call4_v1) (.of main_v108) (.of main_call5_v1) (.of main_v109) (.of main_v110) (.of main_v111) (.of main_v112) (.of main_v113) (.of main_v114) (.of main_v123) (.of main_v120) (.of main_v122) (.of main_v124) (.of main_v126) (.of main_v127) (.of main_v128) (.of main_v129)

def ops4 : List (HloOp τ sig (Elt F)) :=
  sblock (.of main_arg13) (.of main_v130) (.of main_arg0) (.of main_v9) (.of main_v131) (.of main_v157) (.of main_v159) (.of main_arg8) (.of main_arg9) (.of main_v132) (.of main_v134) (.of main_v135) (.of main_v136) (.of main_v139) (.of main_v141) (.of main_v142) (.of main_v143) (.of main_c_31) (.of main_c_32) (.of main_c_33) (.of main_c_34) (.of main_v133) (.of main_v140) (.of main_v137) (.of main_v144) (.of main_v158) (.of main_v161) (.of main_v165) (.of main_v138) (.of main_v145) (.of main_v146) (.of main_call6_v0) (.of main_call7_v0) (.of main_v155) (.of main_v156) (.of main_cst_35) (.of main_call6_cst) (.of main_call7_cst) (.of main_cst_36) (.of main_cst_37) (.of main_cst_38) (.of main_cst_39) (.of main_cst_40) (.of main_cst_41) (.of main_v147) (.of main_call6_v1) (.of main_v148) (.of main_call7_v1) (.of main_v149) (.of main_v150) (.of main_v151) (.of main_v152) (.of main_v153) (.of main_v154) (.of main_v163) (.of main_v160) (.of main_v162) (.of main_v164) (.of main_v166) (.of main_v167) (.of main_v168) (.of main_v169)

def ops5 : List (HloOp τ sig (Elt F)) :=
  [ unary main_v39 main_v170 (broadcastInDim S50000x1x128 ![0, 2] bcast_S50000x128_S50000x1x128_0_2),
    unary main_v79 main_v171 (broadcastInDim S50000x1x128 ![0, 2] bcast_S50000x128_S50000x1x128_0_2),
    binary main_v170 main_v171 main_v172 (fun a b => concatenate S50000x2x128 1 [⟨S50000x1x128, a⟩, ⟨S50000x1x128, b⟩] concatenates_S50000x1x128_S50000x1x128_S50000x2x128_d1),
    unary main_v49 main_v173 (broadcastInDim S50000x1x1 ![0, 2] bcast_S50000x1_S50000x1x1_0_2),
    unary main_v89 main_v174 (broadcastInDim S50000x1x1 ![0, 2] bcast_S50000x1_S50000x1x1_0_2),
    binary main_v173 main_v174 main_v175 (fun a b => concatenate S50000x2x1 1 [⟨S50000x1x1, a⟩, ⟨S50000x1x1, b⟩] concatenates_S50000x1x1_S50000x1x1_S50000x2x1_d1),
    nullary main_cst_42 (constant S_ .f32 0xFF800000#32),
    binary main_v175 main_cst_42 main_v176 (fun x v => Host.reduce FloatOps.maximumf x v reducesTo_S50000x2x1_S50000x1_d1 h_S_),
    nullary main_cst_43 (constant S_ .f32 0xFF800000#32),
    unary main_cst_43 main_v177 (broadcastInDim S50000x1 ![] bcast_S_S50000x1),
    binary main_v177 main_v176 main_v178 maximumf,
    unary main_v178 main_v179 (broadcastInDim S50000x1x1 ![0, 2] bcast_S50000x1_S50000x1x1_0_2),
    unary main_v179 main_v180 (broadcastInDim S50000x2x1 ![0, 1, 2] bcast_S50000x1x1_S50000x2x1_0_1_2),
    binary main_v175 main_v180 main_v181 subf,
    unary main_v181 main_v182 Host.exp,
    nullary main_cst_44 (constant S_ .f32 0x00000000#32),
    binary main_v182 main_cst_44 main_v183 (fun x v => Host.reduceAdd x v reducesTo_S50000x2x1_S50000x1_d1 h_S_),
    unary main_v183 main_v184 (broadcastInDim S50000x1x1 ![0, 2] bcast_S50000x1_S50000x1x1_0_2),
    unary main_v184 main_v185 (broadcastInDim S50000x2x1 ![0, 1, 2] bcast_S50000x1x1_S50000x2x1_0_1_2),
    binary main_v182 main_v185 main_v186 Host.divf,
    unary main_v186 main_v187 (broadcastInDim S50000x2x128 ![0, 1, 2] bcast_S50000x2x1_S50000x2x128_0_1_2),
    binary main_v187 main_v172 main_v188 mulf,
    nullary main_cst_45 (constant S_ .f32 0x00000000#32),
    binary main_v188 main_cst_45 main_v189 (fun x v => Host.reduceAdd x v reducesTo_S50000x2x128_S50000x128_d1 h_S_) ]

def ops6 : List (HloOp τ sig (Elt F)) :=
  [ unary main_v119 main_v190 (broadcastInDim S50000x1x128 ![0, 2] bcast_S50000x128_S50000x1x128_0_2),
    unary main_v159 main_v191 (broadcastInDim S50000x1x128 ![0, 2] bcast_S50000x128_S50000x1x128_0_2),
    binary main_v190 main_v191 main_v192 (fun a b => concatenate S50000x2x128 1 [⟨S50000x1x128, a⟩, ⟨S50000x1x128, b⟩] concatenates_S50000x1x128_S50000x1x128_S50000x2x128_d1),
    unary main_v129 main_v193 (broadcastInDim S50000x1x1 ![0, 2] bcast_S50000x1_S50000x1x1_0_2),
    unary main_v169 main_v194 (broadcastInDim S50000x1x1 ![0, 2] bcast_S50000x1_S50000x1x1_0_2),
    binary main_v193 main_v194 main_v195 (fun a b => concatenate S50000x2x1 1 [⟨S50000x1x1, a⟩, ⟨S50000x1x1, b⟩] concatenates_S50000x1x1_S50000x1x1_S50000x2x1_d1),
    nullary main_cst_46 (constant S_ .f32 0xFF800000#32),
    binary main_v195 main_cst_46 main_v196 (fun x v => Host.reduce FloatOps.maximumf x v reducesTo_S50000x2x1_S50000x1_d1 h_S_),
    nullary main_cst_47 (constant S_ .f32 0xFF800000#32),
    unary main_cst_47 main_v197 (broadcastInDim S50000x1 ![] bcast_S_S50000x1),
    binary main_v197 main_v196 main_v198 maximumf,
    unary main_v198 main_v199 (broadcastInDim S50000x1x1 ![0, 2] bcast_S50000x1_S50000x1x1_0_2),
    unary main_v199 main_v200 (broadcastInDim S50000x2x1 ![0, 1, 2] bcast_S50000x1x1_S50000x2x1_0_1_2),
    binary main_v195 main_v200 main_v201 subf,
    unary main_v201 main_v202 Host.exp,
    nullary main_cst_48 (constant S_ .f32 0x00000000#32),
    binary main_v202 main_cst_48 main_v203 (fun x v => Host.reduceAdd x v reducesTo_S50000x2x1_S50000x1_d1 h_S_),
    unary main_v203 main_v204 (broadcastInDim S50000x1x1 ![0, 2] bcast_S50000x1_S50000x1x1_0_2),
    unary main_v204 main_v205 (broadcastInDim S50000x2x1 ![0, 1, 2] bcast_S50000x1x1_S50000x2x1_0_1_2),
    binary main_v202 main_v205 main_v206 Host.divf,
    unary main_v206 main_v207 (broadcastInDim S50000x2x128 ![0, 1, 2] bcast_S50000x2x1_S50000x2x128_0_1_2),
    binary main_v207 main_v192 main_v208 mulf,
    nullary main_cst_49 (constant S_ .f32 0x00000000#32),
    binary main_v208 main_cst_49 main_v209 (fun x v => Host.reduceAdd x v reducesTo_S50000x2x128_S50000x128_d1 h_S_) ]

def ops7 : List (HloOp τ sig (Elt F)) :=
  [ unary main_v189 main_v210 (broadcastInDim S1x50000x128 ![1, 2] bcast_S50000x128_S1x50000x128_1_2),
    unary main_v209 main_v211 (broadcastInDim S1x50000x128 ![1, 2] bcast_S50000x128_S1x50000x128_1_2),
    binary main_v210 main_v211 main_v212 (fun a b => concatenate S2x50000x128 0 [⟨S1x50000x128, a⟩, ⟨S1x50000x128, b⟩] concatenates_S1x50000x128_S1x50000x128_S2x50000x128_d0) ]

def ops : List (HloOp τ sig (Elt F)) :=
  ops0 ++ (ops1 ++ (ops2 ++ (ops3 ++ (ops4 ++ (ops5 ++ (ops6 ++ ops7))))))

theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

theorem wr {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

def W0 : List (Ref sig .tc) := [main_v0, main_v1, main_v2, main_v3, main_v4, main_v5, main_v6, main_v7, main_v8, main_v9]
theorem ops0_sub : (ops0 : List (HloOp τ sig (Elt F))).Forall fun op => op.bufs ⊆ tcRefs τ sig := by
  simp only [ops0, List.forall_cons, List.Forall, unary_bufs_sub, binary_bufs_sub, nullary_bufs_sub, ternary_bufs_sub, and_self]
theorem ops0_fresh : ∀ op ∈ (ops0 : List (HloOp τ sig (Elt F))), op.fresh = ∅ := by
  intro _ h; unfold ops0 at h; (repeat (cases h with | head => rfl | tail _ h => ?_)); exact nomatch h
theorem ops0_writes : (ops0 : List (HloOp τ sig (Elt F))).Forall fun op => op.writes ⊆ (W0.map (Proc.devRef (τ := τ) .tc)).toFinset := by
  refine List.forall_iff_forall_mem.2 fun _ h => ?_
  unfold ops0 at h; (repeat (cases h with | head => exact wr (by decide) | tail _ h => ?_)); exact nomatch h
theorem frame0 (V : Valuation τ sig (Elt F)) {r : Ref sig .tc} (hr : r ∉ W0) :
    after ops0 V (no_index (Proc.devRef .tc r)) = V (Proc.devRef .tc r) :=
  after_of_writes_sub ops0 V ops0_writes hr

def W1 : List (Ref sig .tc) := [main_v10, main_v11, main_c, main_v12, main_v13, main_c_0, main_v14, main_v15, main_v16, main_v17, main_v18, main_c_1, main_v19, main_v20, main_c_2, main_v21, main_v22, main_v23, main_v24, main_v25, main_v26, main_cst, main_v27, main_call0_v0, main_call0_cst, main_call0_v1, main_v28, main_call1_v0, main_call1_cst, main_call1_v1, main_v29, main_v30, main_cst_3, main_v31, main_v32, main_v33, main_v34, main_v35, main_v36, main_cst_4, main_v37, main_v38, main_v39, main_cst_5, main_v40, main_v41, main_v42, main_cst_6, main_v43, main_cst_7, main_v44, main_v45, main_v46, main_cst_8, main_v47, main_v48, main_v49]
theorem ops1_sub : (ops1 : List (HloOp τ sig (Elt F))).Forall fun op => op.bufs ⊆ tcRefs τ sig := by
  simp only [ops1, sblock, List.forall_cons, List.Forall, unary_bufs_sub, binary_bufs_sub, nullary_bufs_sub, ternary_bufs_sub, and_self]
theorem ops1_fresh : ∀ op ∈ (ops1 : List (HloOp τ sig (Elt F))), op.fresh = ∅ := by
  intro _ h; unfold ops1 sblock at h; (repeat (cases h with | head => rfl | tail _ h => ?_)); exact nomatch h
theorem ops1_writes : (ops1 : List (HloOp τ sig (Elt F))).Forall fun op => op.writes ⊆ (W1.map (Proc.devRef (τ := τ) .tc)).toFinset := by
  refine List.forall_iff_forall_mem.2 fun _ h => ?_
  unfold ops1 sblock at h; (repeat (cases h with | head => exact wr (by decide) | tail _ h => ?_)); exact nomatch h
theorem frame1 (V : Valuation τ sig (Elt F)) {r : Ref sig .tc} (hr : r ∉ W1) :
    after ops1 V (no_index (Proc.devRef .tc r)) = V (Proc.devRef .tc r) :=
  after_of_writes_sub ops1 V ops1_writes hr

def W2 : List (Ref sig .tc) := [main_v50, main_v51, main_c_9, main_v52, main_v53, main_c_10, main_v54, main_v55, main_v56, main_v57, main_v58, main_c_11, main_v59, main_v60, main_c_12, main_v61, main_v62, main_v63, main_v64, main_v65, main_v66, main_cst_13, main_v67, main_call2_v0, main_call2_cst, main_call2_v1, main_v68, main_call3_v0, main_call3_cst, main_call3_v1, main_v69, main_v70, main_cst_14, main_v71, main_v72, main_v73, main_v74, main_v75, main_v76, main_cst_15, main_v77, main_v78, main_v79, main_cst_16, main_v80, main_v81, main_v82, main_cst_17, main_v83, main_cst_18, main_v84, main_v85, main_v86, main_cst_19, main_v87, main_v88, main_v89]
theorem ops2_sub : (ops2 : List (HloOp τ sig (Elt F))).Forall fun op => op.bufs ⊆ tcRefs τ sig := by
  simp only [ops2, sblock, List.forall_cons, List.Forall, unary_bufs_sub, binary_bufs_sub, nullary_bufs_sub, ternary_bufs_sub, and_self]
theorem ops2_fresh : ∀ op ∈ (ops2 : List (HloOp τ sig (Elt F))), op.fresh = ∅ := by
  intro _ h; unfold ops2 sblock at h; (repeat (cases h with | head => rfl | tail _ h => ?_)); exact nomatch h
theorem ops2_writes : (ops2 : List (HloOp τ sig (Elt F))).Forall fun op => op.writes ⊆ (W2.map (Proc.devRef (τ := τ) .tc)).toFinset := by
  refine List.forall_iff_forall_mem.2 fun _ h => ?_
  unfold ops2 sblock at h; (repeat (cases h with | head => exact wr (by decide) | tail _ h => ?_)); exact nomatch h
theorem frame2 (V : Valuation τ sig (Elt F)) {r : Ref sig .tc} (hr : r ∉ W2) :
    after ops2 V (no_index (Proc.devRef .tc r)) = V (Proc.devRef .tc r) :=
  after_of_writes_sub ops2 V ops2_writes hr

def W3 : List (Ref sig .tc) := [main_v90, main_v91, main_c_20, main_v92, main_v93, main_c_21, main_v94, main_v95, main_v96, main_v97, main_v98, main_c_22, main_v99, main_v100, main_c_23, main_v101, main_v102, main_v103, main_v104, main_v105, main_v106, main_cst_24, main_v107, main_call4_v0, main_call4_cst, main_call4_v1, main_v108, main_call5_v0, main_call5_cst, main_call5_v1, main_v109, main_v110, main_cst_25, main_v111, main_v112, main_v113, main_v114, main_v115, main_v116, main_cst_26, main_v117, main_v118, main_v119, main_cst_27, main_v120, main_v121, main_v122, main_cst_28, main_v123, main_cst_29, main_v124, main_v125, main_v126, main_cst_30, main_v127, main_v128, main_v129]
theorem ops3_sub : (ops3 : List (HloOp τ sig (Elt F))).Forall fun op => op.bufs ⊆ tcRefs τ sig := by
  simp only [ops3, sblock, List.forall_cons, List.Forall, unary_bufs_sub, binary_bufs_sub, nullary_bufs_sub, ternary_bufs_sub, and_self]
theorem ops3_fresh : ∀ op ∈ (ops3 : List (HloOp τ sig (Elt F))), op.fresh = ∅ := by
  intro _ h; unfold ops3 sblock at h; (repeat (cases h with | head => rfl | tail _ h => ?_)); exact nomatch h
theorem ops3_writes : (ops3 : List (HloOp τ sig (Elt F))).Forall fun op => op.writes ⊆ (W3.map (Proc.devRef (τ := τ) .tc)).toFinset := by
  refine List.forall_iff_forall_mem.2 fun _ h => ?_
  unfold ops3 sblock at h; (repeat (cases h with | head => exact wr (by decide) | tail _ h => ?_)); exact nomatch h
theorem frame3 (V : Valuation τ sig (Elt F)) {r : Ref sig .tc} (hr : r ∉ W3) :
    after ops3 V (no_index (Proc.devRef .tc r)) = V (Proc.devRef .tc r) :=
  after_of_writes_sub ops3 V ops3_writes hr

def W4 : List (Ref sig .tc) := [main_v130, main_v131, main_c_31, main_v132, main_v133, main_c_32, main_v134, main_v135, main_v136, main_v137, main_v138, main_c_33, main_v139, main_v140, main_c_34, main_v141, main_v142, main_v143, main_v144, main_v145, main_v146, main_cst_35, main_v147, main_call6_v0, main_call6_cst, main_call6_v1, main_v148, main_call7_v0, main_call7_cst, main_call7_v1, main_v149, main_v150, main_cst_36, main_v151, main_v152, main_v153, main_v154, main_v155, main_v156, main_cst_37, main_v157, main_v158, main_v159, main_cst_38, main_v160, main_v161, main_v162, main_cst_39, main_v163, main_cst_40, main_v164, main_v165, main_v166, main_cst_41, main_v167, main_v168, main_v169]
theorem ops4_sub : (ops4 : List (HloOp τ sig (Elt F))).Forall fun op => op.bufs ⊆ tcRefs τ sig := by
  simp only [ops4, sblock, List.forall_cons, List.Forall, unary_bufs_sub, binary_bufs_sub, nullary_bufs_sub, ternary_bufs_sub, and_self]
theorem ops4_fresh : ∀ op ∈ (ops4 : List (HloOp τ sig (Elt F))), op.fresh = ∅ := by
  intro _ h; unfold ops4 sblock at h; (repeat (cases h with | head => rfl | tail _ h => ?_)); exact nomatch h
theorem ops4_writes : (ops4 : List (HloOp τ sig (Elt F))).Forall fun op => op.writes ⊆ (W4.map (Proc.devRef (τ := τ) .tc)).toFinset := by
  refine List.forall_iff_forall_mem.2 fun _ h => ?_
  unfold ops4 sblock at h; (repeat (cases h with | head => exact wr (by decide) | tail _ h => ?_)); exact nomatch h
theorem frame4 (V : Valuation τ sig (Elt F)) {r : Ref sig .tc} (hr : r ∉ W4) :
    after ops4 V (no_index (Proc.devRef .tc r)) = V (Proc.devRef .tc r) :=
  after_of_writes_sub ops4 V ops4_writes hr

def W5 : List (Ref sig .tc) := [main_v170, main_v171, main_v172, main_v173, main_v174, main_v175, main_cst_42, main_v176, main_cst_43, main_v177, main_v178, main_v179, main_v180, main_v181, main_v182, main_cst_44, main_v183, main_v184, main_v185, main_v186, main_v187, main_v188, main_cst_45, main_v189]
theorem ops5_sub : (ops5 : List (HloOp τ sig (Elt F))).Forall fun op => op.bufs ⊆ tcRefs τ sig := by
  simp only [ops5, List.forall_cons, List.Forall, unary_bufs_sub, binary_bufs_sub, nullary_bufs_sub, ternary_bufs_sub, and_self]
theorem ops5_fresh : ∀ op ∈ (ops5 : List (HloOp τ sig (Elt F))), op.fresh = ∅ := by
  intro _ h; unfold ops5 at h; (repeat (cases h with | head => rfl | tail _ h => ?_)); exact nomatch h
theorem ops5_writes : (ops5 : List (HloOp τ sig (Elt F))).Forall fun op => op.writes ⊆ (W5.map (Proc.devRef (τ := τ) .tc)).toFinset := by
  refine List.forall_iff_forall_mem.2 fun _ h => ?_
  unfold ops5 at h; (repeat (cases h with | head => exact wr (by decide) | tail _ h => ?_)); exact nomatch h
theorem frame5 (V : Valuation τ sig (Elt F)) {r : Ref sig .tc} (hr : r ∉ W5) :
    after ops5 V (no_index (Proc.devRef .tc r)) = V (Proc.devRef .tc r) :=
  after_of_writes_sub ops5 V ops5_writes hr

def W6 : List (Ref sig .tc) := [main_v190, main_v191, main_v192, main_v193, main_v194, main_v195, main_cst_46, main_v196, main_cst_47, main_v197, main_v198, main_v199, main_v200, main_v201, main_v202, main_cst_48, main_v203, main_v204, main_v205, main_v206, main_v207, main_v208, main_cst_49, main_v209]
theorem ops6_sub : (ops6 : List (HloOp τ sig (Elt F))).Forall fun op => op.bufs ⊆ tcRefs τ sig := by
  simp only [ops6, List.forall_cons, List.Forall, unary_bufs_sub, binary_bufs_sub, nullary_bufs_sub, ternary_bufs_sub, and_self]
theorem ops6_fresh : ∀ op ∈ (ops6 : List (HloOp τ sig (Elt F))), op.fresh = ∅ := by
  intro _ h; unfold ops6 at h; (repeat (cases h with | head => rfl | tail _ h => ?_)); exact nomatch h
theorem ops6_writes : (ops6 : List (HloOp τ sig (Elt F))).Forall fun op => op.writes ⊆ (W6.map (Proc.devRef (τ := τ) .tc)).toFinset := by
  refine List.forall_iff_forall_mem.2 fun _ h => ?_
  unfold ops6 at h; (repeat (cases h with | head => exact wr (by decide) | tail _ h => ?_)); exact nomatch h
theorem frame6 (V : Valuation τ sig (Elt F)) {r : Ref sig .tc} (hr : r ∉ W6) :
    after ops6 V (no_index (Proc.devRef .tc r)) = V (Proc.devRef .tc r) :=
  after_of_writes_sub ops6 V ops6_writes hr

def W7 : List (Ref sig .tc) := [main_v210, main_v211, main_v212]
theorem ops7_sub : (ops7 : List (HloOp τ sig (Elt F))).Forall fun op => op.bufs ⊆ tcRefs τ sig := by
  simp only [ops7, List.forall_cons, List.Forall, unary_bufs_sub, binary_bufs_sub, nullary_bufs_sub, ternary_bufs_sub, and_self]
theorem ops7_fresh : ∀ op ∈ (ops7 : List (HloOp τ sig (Elt F))), op.fresh = ∅ := by
  intro _ h; unfold ops7 at h; (repeat (cases h with | head => rfl | tail _ h => ?_)); exact nomatch h
theorem ops7_writes : (ops7 : List (HloOp τ sig (Elt F))).Forall fun op => op.writes ⊆ (W7.map (Proc.devRef (τ := τ) .tc)).toFinset := by
  refine List.forall_iff_forall_mem.2 fun _ h => ?_
  unfold ops7 at h; (repeat (cases h with | head => exact wr (by decide) | tail _ h => ?_)); exact nomatch h
theorem frame7 (V : Valuation τ sig (Elt F)) {r : Ref sig .tc} (hr : r ∉ W7) :
    after ops7 V (no_index (Proc.devRef .tc r)) = V (Proc.devRef .tc r) :=
  after_of_writes_sub ops7 V ops7_writes hr

theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, List.forall_append.2 ⟨ops4_sub,
    List.forall_append.2 ⟨ops5_sub, List.forall_append.2 ⟨ops6_sub, ops7_sub⟩⟩⟩⟩⟩⟩⟩
theorem ops_fresh : ∀ op ∈ (ops : List (HloOp τ sig (Elt F))), op.fresh = ∅ := by
  intro op h
  simp only [ops, List.mem_append] at h
  rcases h with h | h | h | h | h | h | h | h
  exacts [ops0_fresh op h, ops1_fresh op h, ops2_fresh op h, ops3_fresh op h, ops4_fresh op h, ops5_fresh op h, ops6_fresh op h, ops7_fresh op h]

theorem c0_v4 (V : Valuation τ sig (Elt F)) :
    after ops0 V (no_index (Proc.devRef .tc main_v4)) = Spec.projB (V (Proc.devRef .tc main_arg0)) (V (Proc.devRef .tc main_arg14)) (V (Proc.devRef .tc main_arg15)) := by
  unfold ops0
  after_results_simp
  rfl

theorem c0_v9 (V : Valuation τ sig (Elt F)) :
    after ops0 V (no_index (Proc.devRef .tc main_v9)) = Spec.projB (V (Proc.devRef .tc main_arg1)) (V (Proc.devRef .tc main_arg16)) (V (Proc.devRef .tc main_arg17)) := by
  unfold ops0
  after_results_simp
  rfl

theorem c1_v39 (V : Valuation τ sig (Elt F)) :
    after ops1 V (no_index (Proc.devRef .tc main_v39)) = Spec.esum (V (Proc.devRef .tc main_arg1)) (V (Proc.devRef .tc main_arg10)) (V (Proc.devRef .tc main_v4)) (V (Proc.devRef .tc main_arg2)) (V (Proc.devRef .tc main_arg3)) := by
  unfold ops1 sblock
  after_results_simp
  rfl

theorem c1_v49 (V : Valuation τ sig (Elt F)) :
    after ops1 V (no_index (Proc.devRef .tc main_v49)) = Spec.emean (V (Proc.devRef .tc main_arg1)) (V (Proc.devRef .tc main_arg10)) (V (Proc.devRef .tc main_v4)) (V (Proc.devRef .tc main_arg2)) (V (Proc.devRef .tc main_arg3)) := by
  unfold ops1 sblock
  after_results_simp
  rfl

theorem c2_v79 (V : Valuation τ sig (Elt F)) :
    after ops2 V (no_index (Proc.devRef .tc main_v79)) = Spec.esum (V (Proc.devRef .tc main_arg1)) (V (Proc.devRef .tc main_arg11)) (V (Proc.devRef .tc main_v4)) (V (Proc.devRef .tc main_arg4)) (V (Proc.devRef .tc main_arg5)) := by
  unfold ops2 sblock
  after_results_simp
  rfl

theorem c2_v89 (V : Valuation τ sig (Elt F)) :
    after ops2 V (no_index (Proc.devRef .tc main_v89)) = Spec.emean (V (Proc.devRef .tc main_arg1)) (V (Proc.devRef .tc main_arg11)) (V (Proc.devRef .tc main_v4)) (V (Proc.devRef .tc main_arg4)) (V (Proc.devRef .tc main_arg5)) := by
  unfold ops2 sblock
  after_results_simp
  rfl

theorem c3_v119 (V : Valuation τ sig (Elt F)) :
    after ops3 V (no_index (Proc.devRef .tc main_v119)) = Spec.esum (V (Proc.devRef .tc main_arg0)) (V (Proc.devRef .tc main_arg12)) (V (Proc.devRef .tc main_v9)) (V (Proc.devRef .tc main_arg6)) (V (Proc.devRef .tc main_arg7)) := by
  unfold ops3 sblock
  after_results_simp
  rfl

theorem c3_v129 (V : Valuation τ sig (Elt F)) :
    after ops3 V (no_index (Proc.devRef .tc main_v129)) = Spec.emean (V (Proc.devRef .tc main_arg0)) (V (Proc.devRef .tc main_arg12)) (V (Proc.devRef .tc main_v9)) (V (Proc.devRef .tc main_arg6)) (V (Proc.devRef .tc main_arg7)) := by
  unfold ops3 sblock
  after_results_simp
  rfl

theorem c4_v159 (V : Valuation τ sig (Elt F)) :
    after ops4 V (no_index (Proc.devRef .tc main_v159)) = Spec.esum (V (Proc.devRef .tc main_arg0)) (V (Proc.devRef .tc main_arg13)) (V (Proc.devRef .tc main_v9)) (V (Proc.devRef .tc main_arg8)) (V (Proc.devRef .tc main_arg9)) := by
  unfold ops4 sblock
  after_results_simp
  rfl

theorem c4_v169 (V : Valuation τ sig (Elt F)) :
    after ops4 V (no_index (Proc.devRef .tc main_v169)) = Spec.emean (V (Proc.devRef .tc main_arg0)) (V (Proc.devRef .tc main_arg13)) (V (Proc.devRef .tc main_v9)) (V (Proc.devRef .tc main_arg8)) (V (Proc.devRef .tc main_arg9)) := by
  unfold ops4 sblock
  after_results_simp
  rfl

theorem c5_v189 (V : Valuation τ sig (Elt F)) :
    after ops5 V (no_index (Proc.devRef .tc main_v189)) = Spec.comb (V (Proc.devRef .tc main_v39)) (V (Proc.devRef .tc main_v79)) (V (Proc.devRef .tc main_v49)) (V (Proc.devRef .tc main_v89)) := by
  unfold ops5
  after_results_simp
  rfl

theorem c6_v209 (V : Valuation τ sig (Elt F)) :
    after ops6 V (no_index (Proc.devRef .tc main_v209)) = Spec.comb (V (Proc.devRef .tc main_v119)) (V (Proc.devRef .tc main_v159)) (V (Proc.devRef .tc main_v129)) (V (Proc.devRef .tc main_v169)) := by
  unfold ops6
  after_results_simp
  rfl

theorem c7_v212 (V : Valuation τ sig (Elt F)) :
    after ops7 V (no_index (Proc.devRef .tc main_v212)) = Spec.stack (V (Proc.devRef .tc main_v189)) (V (Proc.devRef .tc main_v209)) := by
  unfold ops7
  after_results_simp
  rfl

theorem after_whole (V : Valuation τ sig (Elt F)) :
    after ops V (Proc.devRef .tc main_v212) = Spec.whole (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  unfold ops
  rw [after_append, after_append, after_append, after_append, after_append, after_append, after_append]
  simp (disch := decide) only [c7_v212, c6_v209, c5_v189, c4_v159, c4_v169, c3_v119, c3_v129, c2_v79, c2_v89, c1_v39, c1_v49,
    c0_v4, c0_v9, frame0, frame1, frame2, frame3, frame4, frame5, frame6, frame7]
  rfl

def Wall : List (Ref sig .tc) := W0 ++ (W1 ++ (W2 ++ (W3 ++ (W4 ++ (W5 ++ (W6 ++ W7))))))

theorem after_kept (V : Valuation τ sig (Elt F)) {r : Ref sig .tc} (h : r ∉ Wall) :
    after ops V (Proc.devRef .tc r) = V (Proc.devRef .tc r) := by
  simp only [Wall, List.mem_append, not_or] at h
  obtain ⟨h0, h1, h2, h3, h4, h5, h6, h7⟩ := h
  unfold ops
  rw [after_append, after_append, after_append, after_append, after_append, after_append, after_append,
    frame7 _ h7, frame6 _ h6, frame5 _ h5, frame4 _ h4, frame3 _ h3, frame2 _ h2, frame1 _ h1, frame0 _ h0]

-- every execution ends with the result at `Spec.whole` of the arguments and the arguments as they were: each stretch computes its named function of what it reads and writes no argument
theorem run_whole (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v212) = Cert.ReferenceIdeal.Spec.whole (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun s h c =>
      have K : ∀ r : Ref sig .tc, r ∉ Wall → s.2.mem ((c.tc : Thread nD τ).loc r) = m ((c.tc : Thread nD τ).loc r) :=
        fun r hr => (h c r).trans (after_kept _ hr)
      ⟨(h c main_v212).trans (after_whole _), K main_arg0 (by decide), K main_arg1 (by decide), K main_arg2 (by decide), K main_arg3 (by decide), K main_arg4 (by decide), K main_arg5 (by decide), K main_arg6 (by decide), K main_arg7 (by decide), K main_arg8 (by decide),
        K main_arg9 (by decide), K main_arg10 (by decide), K main_arg11 (by decide), K main_arg12 (by decide), K main_arg13 (by decide), K main_arg14 (by decide), K main_arg15 (by decide), K main_arg16 (by decide), K main_arg17 (by decide)⟩)
    (run_seq scopedRefs_eq scopedSems_eq defs main (fun _ => ops) main_eq (fun _ => ops_sub) m ρ (fun _ => ops_fresh))

end Cert.ReferenceIdeal.RefRun

end
-- ==== Proof.PreDecode.lean ====
import proofs.«412146_j64725157151125_3_alg».proof.Pre_finite_inputs
import proofs.«412146_j64725157151125_3_alg».proof.Proof.Gen.Pre_finite_inputs
import Idealize.ShloMosaic.Lib.ReduceAll
import Idealize.ShloMosaic.Lib.ValueIdx

noncomputable section

namespace Cert.PreDecode

open Idealize.ShloMosaic Cert.Pre_finite_inputs Cert.Pre_finite_inputs.Facts

variable {F : FTy → Type} [FloatOps F]

theorem nonneg_of_all (idx : IVec S640000 32)
    (h : Host.reduce IntOp.andi (cmpi CmpIPredicate.sge idx (broadcastInDim S640000 ![] bcast_S_S640000 (constantI S_ 32 0#32)))
      (constantI S_ 1 1#1) reducesTo_S640000_S_d0 h_S_ ValueIdx.ix0 = 1#1) (e : S640000.Idx) :
    IntOp.cmpi .sge (idx e) 0#32 = 1#1 :=
  Host.reduce_andi_all _ _ _ _ _ h e

-- the precondition's eight all-non-negative conjuncts, read entry by entry
theorem nonneg_of_pre (a0 a1 : FVec F S50000x128 .f32) (a2 a3 a4 a5 a6 a7 a8 a9 : IVec S640000 32) (a10 a11 a12 a13 a14 : FVec F S128x128 .f32)
    (a15 : FVec F S128 .f32) (a16 : FVec F S128x128 .f32) (a17 : FVec F S128 .f32)
    (h : fn (F := F) a0 a1 a2 a3 a4 a5 a6 a7 a8 a9 a10 a11 a12 a13 a14 a15 a16 a17 = fun _ => 1#1) :
    (∀ e, IntOp.cmpi .sge (a2 e) 0#32 = 1#1) ∧ (∀ e, IntOp.cmpi .sge (a3 e) 0#32 = 1#1)
    ∧ (∀ e, IntOp.cmpi .sge (a4 e) 0#32 = 1#1) ∧ (∀ e, IntOp.cmpi .sge (a5 e) 0#32 = 1#1)
    ∧ (∀ e, IntOp.cmpi .sge (a6 e) 0#32 = 1#1) ∧ (∀ e, IntOp.cmpi .sge (a7 e) 0#32 = 1#1)
    ∧ (∀ e, IntOp.cmpi .sge (a8 e) 0#32 = 1#1) ∧ (∀ e, IntOp.cmpi .sge (a9 e) 0#32 = 1#1) := by
  have h0 := congrFun h ValueIdx.ix0
  dsimp only [fn, fn_part1, fn_part2, fn_part3, fn_part4] at h0
  simp only [andi, IntOp.andi_eq_one] at h0
  obtain ⟨⟨⟨⟨⟨⟨⟨⟨-, h2⟩, h3⟩, h4⟩, h5⟩, h6⟩, h7⟩, h8⟩, h9⟩ := h0
  exact ⟨nonneg_of_all a2 h2, nonneg_of_all a3 h3, nonneg_of_all a4 h4, nonneg_of_all a5 h5,
    nonneg_of_all a6 h6, nonneg_of_all a7 h7, nonneg_of_all a8 h8, nonneg_of_all a9 h9⟩

end Cert.PreDecode

end
-- ==== Proof.lean ====
import proofs.«412146_j64725157151125_3_alg».proof.Defs
import proofs.«412146_j64725157151125_3_alg».proof.Proof.Gen.Kernel
import proofs.«412146_j64725157151125_3_alg».proof.Proof.Gen.KernelIdeal
import proofs.«412146_j64725157151125_3_alg».proof.Proof.Gen.ReferenceIdeal
import proofs.«412146_j64725157151125_3_alg».proof.Proof.Gen.Pre_finite_inputs
import proofs.«412146_j64725157151125_3_alg».proof.Proof.KFrame
import proofs.«412146_j64725157151125_3_alg».proof.Proof.KIFrame
import proofs.«412146_j64725157151125_3_alg».proof.Proof.KIValue
import proofs.«412146_j64725157151125_3_alg».proof.Proof.RefRun
import proofs.«412146_j64725157151125_3_alg».proof.Proof.PreDecode
import Idealize.ShloMosaic.Adequacy
import Idealize.ShloMosaic.Init

noncomputable section

namespace Cert.Proof

open Idealize.ShloMosaic Idealize.SL.Sem

/-- Both runs end at one result: the kernel's is the reference's function of the arguments, and the two memories agree on those. -/
theorem algebraic : Cert.algebraic_KernelIdeal_ReferenceIdeal := by
  intro m ρ m' ρ' hpre hagree
  refine ⟨_, (θ_run Cert.KernelIdeal.defs _ _).mono (fun r h c => ⟨(h c).1.trans (Cert.KernelIdeal.Gen.result_eq m c (let ⟨h2, h3, h4, h5, h6, h7, h8, h9⟩ := Cert.PreDecode.nonneg_of_pre _ _ _ _ _ _ _ _ _ _ _ _ _ _ _ _ _ _ (hpre c); ⟨h2, h3, h4, h5, h6, h7, h8, h9⟩)), (h c).2⟩)
    (Cert.KernelIdeal.Gen.run_out (F := Ideal) m ρ), ?_⟩
  refine (θ_run Cert.ReferenceIdeal.defs _ _).mono (fun r h c => ⟨(h c).1.trans ?_, (h c).2⟩) (Cert.ReferenceIdeal.RefRun.run_whole (F := Ideal) m' ρ')
  simp only [hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame (F := Bits) m ρ, fun m ρ _ => Cert.KernelIdeal.Gen.frame (F := Ideal) m ρ,
  fun m ρ _ => (θ_run Cert.ReferenceIdeal.defs _ _).mono (fun _ h c => (h c).2) (Cert.ReferenceIdeal.RefRun.run_whole (F := Ideal) m ρ),
  trivial, algebraic⟩

end Cert.Proof

end
